-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S3x128 .f32) (main_arg10 : FVec F S64x128 .f32) (main_arg11 : FVec F S64 .f32) (main_arg12 : FVec F S1x64 .f32) (main_arg13 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg12
  let main_cst_18 : FVec F S_ .f32 := constant S_ .f32 0x7F800000#32
  let main_v50 : FVec F S1x64 .f32 := broadcastInDim S1x64 ![] bcast_S_S1x64 main_cst_18
  fn_part3 (F := F) main_arg13 main_v48 main_v49 main_v50

def fn_part1 {F : FTy → Type} [FloatOps F] (main_arg6 : FVec F S128 .f32) (main_arg7 : FVec F S3x128x128 .f32) (main_arg8 : FVec F S3x128x128 .f32) (main_arg9 : FVec F S3x128 .f32) (main_arg10 : FVec F S64x128 .f32) (main_arg11 : FVec F S64 .f32) (main_arg12 : FVec F S1x64 .f32) (main_arg13 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1600000 32) (main_arg2 : FVec F S1600000 .f32) (main_arg3 : IVec S100000 32) (main_arg4 : FVec F S128x64 .f32) (main_arg5 : FVec F S128x64 .f32) (main_arg6 : FVec F S128 .f32) (main_arg7 : FVec F S3x128x128 .f32) (main_arg8 : FVec F S3x128x128 .f32) (main_arg9 : FVec F S3x128 .f32) (main_arg10 : FVec F S64x128 .f32) (main_arg11 : FVec F S64 .f32) (main_arg12 : FVec F S1x64 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000x1 : Shape := ⟨2, ![1600000, 1]⟩
abbrev S_ : Shape := ⟨0, ![]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1x128x128 : Shape := ⟨3, ![1, 128, 128]⟩
abbrev S128x128 : Shape := ⟨2, ![128, 128]⟩
abbrev S1600000x128 : Shape := ⟨2, ![1600000, 128]⟩
abbrev S64x1 : Shape := ⟨2, ![64, 1]⟩
abbrev S1x1 : Shape := ⟨2, ![1, 1]⟩
abbrev S100000x1 : Shape := ⟨2, ![100000, 1]⟩
abbrev S5000x1 : Shape := ⟨2, ![5000, 1]⟩
abbrev S1024x1 : Shape := ⟨2, ![1024, 1]⟩
abbrev S2000x1 : Shape := ⟨2, ![2000, 1]⟩
abbrev S1024x2 : Shape := ⟨2, ![1024, 2]⟩
abbrev S1x1024 : Shape := ⟨2, ![1, 1024]⟩
abbrev S2000x1024 : Shape := ⟨2, ![2000, 1024]⟩

abbrev nBuf : Space → Nat
  | .hbm => 123
  | .vmem => 50
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S128x64, .f32⟩
  | .hbm, ⟨6, _⟩ => ⟨S128, .f32⟩
  | .hbm, ⟨7, _⟩ => ⟨S3x128x128, .f32⟩
  | .hbm, ⟨8, _⟩ => ⟨S3x128x128, .f32⟩
  | .hbm, ⟨9, _⟩ => ⟨S3x128, .f32⟩
  | .hbm, ⟨10, _⟩ => ⟨S64x128, .f32⟩
  | .hbm, ⟨11, _⟩ => ⟨S64, .f32⟩
  | .hbm, ⟨12, _⟩ => ⟨S1x64, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1600000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S64x128, .f32⟩
  | .hbm, ⟨35, _⟩ => ⟨S64x128, .f32⟩
  | .hbm, ⟨36, _⟩ => ⟨S1x128, .f32⟩
  | .hbm, ⟨37, _⟩ => ⟨S100000x128, .f32⟩
  | .hbm, ⟨38, _⟩ => ⟨S1x128x128, .f32⟩
  | .hbm, ⟨39, _⟩ => ⟨S128x128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S128x128, .f32⟩
  | .hbm, ⟨87, _⟩ => ⟨S128x128, .f32⟩
  | .hbm, ⟨88, _⟩ => ⟨S1x128, .f32⟩
  | .hbm, ⟨89, _⟩ => ⟨S100000x128, .f32⟩
  | .hbm, ⟨90, _⟩ => ⟨S1x128x128, .f32⟩
  | .hbm, ⟨91, _⟩ => ⟨S128x128, .f32⟩
  | .hbm, ⟨92, _⟩ => ⟨S1x128x128, .f32⟩
  | .hbm, ⟨93, _⟩ => ⟨S128x128, .f32⟩
  | .hbm, ⟨94, _⟩ => ⟨S1x128, .f32⟩
  | .hbm, ⟨95, _⟩ => ⟨S128, .f32⟩
  | .hbm, ⟨96, _⟩ => ⟨S1600000x1, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x128, .f32⟩
  | .hbm, ⟨106, _⟩ => ⟨S1600000x128, .f32⟩
  | .hbm, ⟨107, _⟩ => ⟨S1600000x128, .f32⟩
  | .hbm, ⟨108, _⟩ => ⟨S_, .f32⟩
  | .hbm, ⟨109, _⟩ => ⟨S100000x128, .f32⟩
  | .hbm, ⟨110, _⟩ => ⟨S1600000x1, .i32⟩
  | .hbm, ⟨111, _⟩ => ⟨S100000x128, .f32⟩
  | .hbm, ⟨112, _⟩ => ⟨S128x128, .f32⟩
  | .hbm, ⟨113, _⟩ => ⟨S128x128, .f32⟩
  | .hbm, ⟨114, _⟩ => ⟨S1x128, .f32⟩
  | .hbm, ⟨115, _⟩ => ⟨S100000x128, .f32⟩
  | .hbm, ⟨116, _⟩ => ⟨S128x64, .f32⟩
  | .hbm, ⟨117, _⟩ => ⟨S64x1, .f32⟩
  | .hbm, ⟨118, _⟩ => ⟨S1x64, .f32⟩
  | .hbm, ⟨119, _⟩ => ⟨S1x1, .f32⟩
  | .hbm, ⟨120, _⟩ => ⟨S100000x1, .f32⟩
  | .hbm, ⟨121, _⟩ => ⟨S100000x1, .i32⟩
  | .hbm, ⟨122, _⟩ => ⟨S1024x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S1x64, .f32⟩
  | .local _ .vmem, ⟨40, _⟩ => ⟨S64x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | .local _ .vmem, ⟨44, _⟩ => ⟨S2000x1, .f32⟩
  | .local _ .vmem, ⟨45, _⟩ => ⟨S2000x1, .f32⟩
  | .local _ .vmem, ⟨46, _⟩ => ⟨S2000x1, .i32⟩
  | .local _ .vmem, ⟨47, _⟩ => ⟨S2000x1, .i32⟩
  | .local _ .vmem, ⟨48, _⟩ => ⟨S1024x1, .f32⟩
  | .local _ .vmem, ⟨49, _⟩ => ⟨S1024x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_4 : Ref sig .tc := ⟨.hbm, 71, rfl⟩
abbrev main_v51 : Ref sig .tc := ⟨.hbm, 72, rfl⟩
abbrev main_v52 : Ref sig .tc := ⟨.hbm, 73, rfl⟩
abbrev main_c_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_7 : Ref sig .tc := ⟨.hbm, 97, rfl⟩
abbrev main_v74 : Ref sig .tc := ⟨.hbm, 98, rfl⟩
abbrev main_v75 : Ref sig .tc := ⟨.hbm, 99, rfl⟩
abbrev main_c_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_9 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_scratch0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def k5_cond2 (i : grid5.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_13 : BitVec 32 := 0#32
  let v31 : BitVec 1 := Scalar.cmpi .ne v30 c0_i32_13
  v31

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  transposes_S1x64_S64x1_1_0 : S1x64.Transposes [1, 0] S64x1
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000_S100000x1 : S100000.ShapeCasts S100000x1
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x1024_d1_w32 : S1x1024.Iotas .tc 32 [1]
  broadcasts_S2000x1_S2000x1024 : S2000x1.Broadcasts S2000x1024
  broadcasts_S1x1024_S2000x1024 : S1x1024.Broadcasts S2000x1024
  natLt_1_32 : 1 < 32
  inb_S1024x2_S1024x1_0_0 : ∀ a, (![0, 0] : Fin 2 → Nat) a + S1024x1.size a ≤ S1024x2.size a
  h_S1024x1 : 0 < S1024x1.numel
  shapeCasts_S1024x1_S1024x1 : S1024x1.ShapeCasts S1024x1
  inb_S1024x2_S1024x1_0_1 : ∀ a, (![0, 1] : Fin 2 → Nat) a + S1024x1.size a ≤ S1024x2.size a
  inb_S1024x1_S1024x1_0_0 : ∀ a, (![0, 0] : Fin 2 → Nat) a + S1024x1.size a ≤ S1024x1.size a
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  dot_S2000x1024_S2000x1_S1024x1_0_0_1_1_n_n_wf : DotDims.WF S2000x1024 S2000x1 S1024x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S100000x1.size a
  hwx5_0 : ∀ i : grid5.Coords, EltTy.bits .f32 = 32 ∨ (Rect.block (s := S100000x1) S2000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .i32 = 32 ∨ (Rect.block (s := S100000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S1024x1.size a
  hwx5_2 : ∀ i : grid5.Coords, EltTy.bits .f32 = 32 ∨ (Rect.block (s := S1024x1) S1024x1.size (cc5_transform_2 i) (hinb5_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S2000x1024_S2000x1_S1024x1_0_0_1_1_n_n : DotDims S2000x1024 S2000x1 S1024x1 where
  lhsContracting := [0]
  rhsContracting := [0]
  lhsNonContracting := [1]
  rhsNonContracting := [1]
  lhsBatch := []
  rhsBatch := []
  wf := dot_S2000x1024_S2000x1_S1024x1_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v94) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v96) S1024x1.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000x1 : Shape := ⟨2, ![1600000, 1]⟩
abbrev S_ : Shape := ⟨0, ![]⟩
abbrev S1600000x64 : Shape := ⟨2, ![1600000, 64]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1600000x128 : Shape := ⟨2, ![1600000, 128]⟩
abbrev S64x1 : Shape := ⟨2, ![64, 1]⟩
abbrev S100000x1 : Shape := ⟨2, ![100000, 1]⟩
abbrev S1x1 : Shape := ⟨2, ![1, 1]⟩
abbrev S1024x1 : Shape := ⟨2, ![1024, 1]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S128x64, .f32⟩
  | 5 => ⟨S128x64, .f32⟩
  | 6 => ⟨S128, .f32⟩
  | 7 => ⟨S3x128x128, .f32⟩
  | 8 => ⟨S3x128x128, .f32⟩
  | 9 => ⟨S3x128, .f32⟩
  | 10 => ⟨S64x128, .f32⟩
  | 11 => ⟨S64, .f32⟩
  | 12 => ⟨S1x64, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S64x128, .f32⟩
  | 35 => ⟨S100000x128, .f32⟩
  | 36 => ⟨S1x128, .f32⟩
  | 37 => ⟨S100000x128, .f32⟩
  | 38 => ⟨S100000x128, .f32⟩
  | 39 => ⟨S64x128, .f32⟩
  | 40 => ⟨S100000x128, .f32⟩
  | 41 => ⟨S100000x128, .f32⟩
  | 42 => ⟨S1x128x128, .f32⟩
  | 43 => ⟨S128x128, .f32⟩
  | 44 => ⟨S1x128x128, .f32⟩
  | 45 => ⟨S128x128, .f32⟩
  | 46 => ⟨S1x128, .f32⟩
  | 47 => ⟨S128, .f32⟩
  | 48 => ⟨S1600000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S128x128, .f32⟩
  | 65 => ⟨S100000x128, .f32⟩
  | 66 => ⟨S1x128, .f32⟩
  | 67 => ⟨S100000x128, .f32⟩
  | 68 => ⟨S100000x128, .f32⟩
  | 69 => ⟨S128x128, .f32⟩
  | 70 => ⟨S100000x128, .f32⟩
  | 71 => ⟨S100000x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S128x128, .f32⟩
  | 95 => ⟨S100000x128, .f32⟩
  | 96 => ⟨S1x128, .f32⟩
  | 97 => ⟨S100000x128, .f32⟩
  | 98 => ⟨S100000x128, .f32⟩
  | 99 => ⟨S128x128, .f32⟩
  | 100 => ⟨S100000x128, .f32⟩
  | 101 => ⟨S100000x128, .f32⟩
  | 102 => ⟨S1x128x128, .f32⟩
  | 103 => ⟨S128x128, .f32⟩
  | 104 => ⟨S1x128x128, .f32⟩
  | 105 => ⟨S128x128, .f32⟩
  | 106 => ⟨S1x128, .f32⟩
  | 107 => ⟨S128, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x128, .f32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S128x128, .f32⟩
  | 125 => ⟨S100000x128, .f32⟩
  | 126 => ⟨S1x128, .f32⟩
  | 127 => ⟨S100000x128, .f32⟩
  | _ => ⟨S100000x64, .f32⟩

abbrev hbmTy0_1 (i : Nat) : BufTy := match i % 128 with
  | 0 => ⟨S100000x128, .f32⟩
  | 1 => ⟨S128x128, .f32⟩
  | 2 => ⟨S100000x128, .f32⟩
  | 3 => ⟨S100000x128, .f32⟩
  | 4 => ⟨S128x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S64x1, .f32⟩
  | 13 => ⟨S100000x1, .f32⟩
  | 14 => ⟨S1x1, .f32⟩
  | 15 => ⟨S100000x1, .f32⟩
  | 16 => ⟨S100000x1, .f32⟩
  | 17 => ⟨S_, .f32⟩
  | 18 => ⟨S1024x1, .f32⟩
  | 19 => ⟨S100000x1, .i32⟩
  | 20 => ⟨S1024x1, .f32⟩
  | 21 => ⟨S_, .f32⟩
  | 22 => ⟨S100000x1, .f32⟩
  | 23 => ⟨S_, .f32⟩
  | 24 => ⟨S1024x1, .f32⟩
  | 25 => ⟨S100000x1, .i32⟩
  | 26 => ⟨S1024x1, .f32⟩
  | 27 => ⟨S_, .f32⟩
  | 28 => ⟨S1024x1, .f32⟩
  | 29 => ⟨S1024x1, .f32⟩
  | 30 => ⟨S1024x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_1 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_4 : Ref sig .tc := ⟨.hbm, 79, rfl⟩
abbrev main_v59 : Ref sig .tc := ⟨.hbm, 80, rfl⟩
abbrev main_v60 : Ref sig .tc := ⟨.hbm, 81, rfl⟩
abbrev main_c_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_7 : Ref sig .tc := ⟨.hbm, 109, rfl⟩
abbrev main_v86 : Ref sig .tc := ⟨.hbm, 110, rfl⟩
abbrev main_v87 : Ref sig .tc := ⟨.hbm, 111, rfl⟩
abbrev main_c_8 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_9 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_call0_cst : Ref sig .tc := ⟨.hbm, 137, rfl⟩
abbrev main_call0_v0 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_10 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_11 : Ref sig .tc := ⟨.hbm, 149, rfl⟩
abbrev main_v120 : Ref sig .tc := ⟨.hbm, 150, rfl⟩
abbrev main_cst_12 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_13 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S1024x1 : S_.BroadcastsInDim S1024x1 (![] : Fin 0 → Fin S1024x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []
  scatter_S1024x1_S100000x1_S100000x1_1_0_0_1_wf : ScatterDims.WF S1024x1 S100000x1 S100000x1 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf

class Facts : Prop extends Facts₀ where

variable [Facts]
-- ==== Proof.K.Reg0Defs.lean ====
import proofs.«402462_j21947282882773_1_alg».proof.Proof.Gen.Kernel.Launch
import proofs.«402462_j21947282882773_1_alg».proof.Proof.Gen.Kernel.Skeleton
import proofs.«402462_j21947282882773_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_5 (x0 : Vec F S5000x64 .f32) (x1 : Vec F S5000x64 .f32) (x2 : Vec F S64x128 .f32) (x3 : Vec F S64x128 .f32)
    (x4 : Vec F S1x128 .f32) : Vec F S5000x128 .f32 :=
  View.canon [⟨r0_3, k0_pay1 (View.ld x0 r0_0) (View.ld x1 r0_0) (View.ld x2 r0_1) (View.ld x3 r0_1) (View.ld x4 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

end Cert.Kernel.Hand
-- ==== Proof.K.Reg1Defs.lean ====
import proofs.«402462_j21947282882773_1_alg».proof.Proof.Gen.Kernel.Launch
import proofs.«402462_j21947282882773_1_alg».proof.Proof.Gen.Kernel.Skeleton
import proofs.«402462_j21947282882773_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0
abbrev rC1 : Rect S1x128 := Rect.unit (s := S1x128) ![0, 0] S1x128.size inb_S1x128_S1x128_0_0

def out1_5 (x0 : Vec F S5000x128 .f32) (x1 : Vec F S5000x128 .f32) (x2 : Vec F S128x128 .f32) (x3 : Vec F S128x128 .f32)
    (x4 : Vec F S1x128 .f32) : Vec F S5000x128 .f32 :=
  View.canon [⟨rA1, k1_pay1 (View.ld x0 rA1) (View.ld x1 rA1) (View.ld x2 rB1) (View.ld x3 rB1) (View.ld x4 rC1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

end Cert.Kernel.Hand
-- ==== Proof.K.Reg2Defs.lean ====
import proofs.«402462_j21947282882773_1_alg».proof.Proof.Gen.Kernel.Launch
import proofs.«402462_j21947282882773_1_alg».proof.Proof.Gen.Kernel.Skeleton
import proofs.«402462_j21947282882773_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S5000x128 := Rect.unit (s := S5000x128) ![0, 0] S5000x128.size inb_S5000x128_S5000x128_0_0
abbrev rB2 : Rect S128x128 := Rect.unit (s := S128x128) ![0, 0] S128x128.size inb_S128x128_S128x128_0_0
abbrev rC2 : Rect S1x128 := Rect.unit (s := S1x128) ![0, 0] S1x128.size inb_S1x128_S1x128_0_0

def out2_5 (x0 : Vec F S5000x128 .f32) (x1 : Vec F S5000x128 .f32) (x2 : Vec F S128x128 .f32) (x3 : Vec F S128x128 .f32)
    (x4 : Vec F S1x128 .f32) : Vec F S5000x128 .f32 :=
  View.canon [⟨rA2, k2_pay1 (View.ld x0 rA2) (View.ld x1 rA2) (View.ld x2 rB2) (View.ld x3 rB2) (View.ld x4 rC2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

end Cert.Kernel.Hand
-- ==== Proof.K.Reg3Defs.lean ====
import proofs.«402462_j21947282882773_1_alg».proof.Proof.Gen.Kernel.Launch
import proofs.«402462_j21947282882773_1_alg».proof.Proof.Gen.Kernel.Skeleton
import proofs.«402462_j21947282882773_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S5000x128 := Rect.unit (s := S5000x128) ![0, 0] S5000x128.size inb_S5000x128_S5000x128_0_0
abbrev rB3 : Rect S128x128 := Rect.unit (s := S128x128) ![0, 0] S128x128.size inb_S128x128_S128x128_0_0
abbrev rC3 : Rect S1x128 := Rect.unit (s := S1x128) ![0, 0] S1x128.size inb_S1x128_S1x128_0_0

def out3_5 (x0 : Vec F S5000x128 .f32) (x1 : Vec F S5000x128 .f32) (x2 : Vec F S128x128 .f32) (x3 : Vec F S128x128 .f32)
    (x4 : Vec F S1x128 .f32) : Vec F S5000x128 .f32 :=
  View.canon [⟨rA3, k3_pay1 (View.ld x0 rA3) (View.ld x1 rA3) (View.ld x2 rB3) (View.ld x3 rB3) (View.ld x4 rC3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

end Cert.Kernel.Hand
-- ==== Proof.K.Reg4Defs.lean ====
import proofs.«402462_j21947282882773_1_alg».proof.Proof.Gen.Kernel.Launch
import proofs.«402462_j21947282882773_1_alg».proof.Proof.Gen.Kernel.Skeleton
import proofs.«402462_j21947282882773_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x64 := Rect.unit (s := S128x64) ![0, 0] S128x64.size inb_S128x64_S128x64_0_0
abbrev r4_2 : Rect S1x64 := Rect.unit (s := S1x64) ![0, 0] S1x64.size inb_S1x64_S1x64_0_0
abbrev r4_3 : Rect S64x1 := Rect.unit (s := S64x1) ![0, 0] S64x1.size inb_S64x1_S64x1_0_0
abbrev r4_4 : Rect S1x1 := Rect.unit (s := S1x1) ![0, 0] S1x1.size inb_S1x1_S1x1_0_0
abbrev r4_5 : Rect S5000x1 := Rect.unit (s := S5000x1) ![0, 0] S5000x1.size inb_S5000x1_S5000x1_0_0

def out4_5 (x0 : Vec F S5000x128 .f32) (x1 : Vec F S128x64 .f32) (x2 : Vec F S1x64 .f32) (x3 : Vec F S64x1 .f32)
    (x4 : Vec F S1x1 .f32) : Vec F S5000x1 .f32 :=
  View.canon [⟨r4_5, k4_pay1 (View.ld x0 r4_0) (View.ld x1 r4_1) (View.ld x2 r4_2) (View.ld x3 r4_3) (View.ld x4 r4_4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

end Cert.Kernel.Hand
-- ==== Proof.K.Reg5Defs.lean ====
import proofs.«402462_j21947282882773_1_alg».proof.Proof.Gen.Kernel.Launch
import proofs.«402462_j21947282882773_1_alg».proof.Proof.Gen.Kernel.Skeleton
import proofs.«402462_j21947282882773_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev col0_5 : Rect S1024x2 := Rect.unit (s := S1024x2) ![0, 0] S1024x1.size inb_S1024x2_S1024x1_0_0

abbrev col1_5 : Rect S1024x2 := Rect.unit (s := S1024x2) ![0, 1] S1024x1.size inb_S1024x2_S1024x1_0_1

def accStep5 (a : Vec F S1024x2 .f32) (y : Vec F S2000x1 .f32) (b : Vec F S2000x1 .i32) : Vec F S1024x2 .f32 :=
  View.canon [⟨col1_5, k5_pay4 b (View.ld a col1_5)⟩, ⟨col0_5, k5_pay3 y b (View.ld a col0_5)⟩]

def acc5 (c : Dev nD) : (n : ℕ) → n < cfg5.N → Vec F S1024x2 .f32
  | 0, h => accStep5 (k5_pay1 (F := F)) (iblk5 V c 0 ⟨0, h⟩) (iblk5 V c 1 ⟨0, h⟩)
  | n + 1, h => accStep5 (acc5 c n (Nat.lt_of_succ_lt h)) (iblk5 V c 0 ⟨n + 1, h⟩) (iblk5 V c 1 ⟨n + 1, h⟩)

def out5_2 (a : Vec F S1024x2 .f32) : Vec F S1024x1 .f32 :=
  View.canon [⟨Rect.unit (s := S1024x1) ![0, 0] S1024x1.size inb_S1024x1_S1024x1_0_0, k5_pay5 (View.ld a col0_5) (View.ld a col1_5)⟩]

abbrev scM5 : Memref sig .tc .vmem S1024x2 .f32 := Memref.whole cc5_scratch0

-- The region's state between points, with the accumulator at a.
def inv5 (c : Dev nD) (a : Vec F S1024x2 .f32) : sProp 𝕄 :=
  iprop(owns (c : Thread nD τ) scM5 fullShare a
    ∗ (Pipeline.scopedRestBut (Ix := Unit) (Name := ℕ) (U := UR sig nD τ) (Lvl := ℕ) (Val := Elt F) spec5 c [cc5_scratch0] : sProp 𝕄)
    ∗ (∃ r, prngReg c r))

def PhiS5 (c : Dev nD) : (n : ℕ) → n ≤ cfg5.N → sProp 𝕄
  | 0, _ => Pipeline.ΦA spec5 c
  | n + 1, hn => inv5 c (acc5 V c n hn)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (acc5 V c 49 (by decide))
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (acc5 V c 49 (by decide)) := by dsimp only [dat5]

end Cert.Kernel.Hand

end
-- ==== Proof.K.Chain.lean ====
import proofs.«402462_j21947282882773_1_alg».proof.Proof.Gen.Kernel.Regions
import proofs.«402462_j21947282882773_1_alg».proof.Proof.K.Reg0Defs
import proofs.«402462_j21947282882773_1_alg».proof.Proof.K.Reg1Defs
import proofs.«402462_j21947282882773_1_alg».proof.Proof.K.Reg2Defs
import proofs.«402462_j21947282882773_1_alg».proof.Proof.K.Reg3Defs
import proofs.«402462_j21947282882773_1_alg».proof.Proof.K.Reg4Defs
import proofs.«402462_j21947282882773_1_alg».proof.Proof.K.Reg5Defs

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev X1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (X1 m) c).arrAt_in w hw _).trans (A_eq0 (X1 m) c w))

theorem W1_of (c : Dev nD) (r : Ref sig .tc) (h : r ∉ hostOps0_W) : W1 m c (Proc.devRef .tc r) = W0 m c (Proc.devRef .tc r) :=
  StableHlo.after_of_writes_sub hostOps0 _ hostOps0_writes h

abbrev W3 : Dev nD → Valuation τ sig (Elt F) := fun c => StableHlo.after hostOps1 (W2 m c)

abbrev X3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W3_of (c : Dev nD) (r : Ref sig .tc) (h : r ∉ hostOps1_W) : W3 m c (Proc.devRef .tc r) = W2 m c (Proc.devRef .tc r) :=
  StableHlo.after_of_writes_sub hostOps1 _ hostOps1_writes h

abbrev W5 : Dev nD → Valuation τ sig (Elt F) := fun c => StableHlo.after hostOps2 (W4 m c)

abbrev X5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (X5 m) c).arrAt w cfg2.N
theorem W6_arr (c : Dev nD) (w : Fin cfg2.W) :
    W6 m c (Proc.devRef .tc (Pipeline.arrRef spec2 w)) = (dat2 (X5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem W5_of (c : Dev nD) (r : Ref sig .tc) (h : r ∉ hostOps2_W) : W5 m c (Proc.devRef .tc r) = W4 m c (Proc.devRef .tc r) :=
  StableHlo.after_of_writes_sub hostOps2 _ hostOps2_writes h

abbrev W7 : Dev nD → Valuation τ sig (Elt F) := fun c => StableHlo.after hostOps3 (W6 m c)

abbrev X7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (X7 m) c).arrAt w cfg3.N
theorem W8_arr (c : Dev nD) (w : Fin cfg3.W) :
    W8 m c (Proc.devRef .tc (Pipeline.arrRef spec3 w)) = (dat3 (X7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

theorem W7_of (c : Dev nD) (r : Ref sig .tc) (h : r ∉ hostOps3_W) : W7 m c (Proc.devRef .tc r) = W6 m c (Proc.devRef .tc r) :=
  StableHlo.after_of_writes_sub hostOps3 _ hostOps3_writes h

abbrev W9 : Dev nD → Valuation τ sig (Elt F) := fun c => StableHlo.after hostOps4 (W8 m c)

abbrev X9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (X9 m) c).arrAt w cfg4.N
theorem W10_arr (c : Dev nD) (w : Fin cfg4.W) :
    W10 m c (Proc.devRef .tc (Pipeline.arrRef spec4 w)) = (dat4 (X9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

theorem W9_of (c : Dev nD) (r : Ref sig .tc) (h : r ∉ hostOps4_W) : W9 m c (Proc.devRef .tc r) = W8 m c (Proc.devRef .tc r) :=
  StableHlo.after_of_writes_sub hostOps4 _ hostOps4_writes h

abbrev W11 : Dev nD → Valuation τ sig (Elt F) := fun c => StableHlo.after hostOps5 (W10 m c)

abbrev X11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (X11 m) c).arrAt w cfg5.N
theorem W12_arr (c : Dev nD) (w : Fin cfg5.W) :
    W12 m c (Proc.devRef .tc (Pipeline.arrRef spec5 w)) = (dat5 (X11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

theorem W11_of (c : Dev nD) (r : Ref sig .tc) (h : r ∉ hostOps5_W) : W11 m c (Proc.devRef .tc r) = W10 m c (Proc.devRef .tc r) :=
  StableHlo.after_of_writes_sub hostOps5 _ hostOps5_writes h

end Cert.Kernel.Hand

end
-- ==== Proof.K.Reg0.lean ====
import proofs.«402462_j21947282882773_1_alg».proof.Proof.K.Reg0Defs

noncomputable section

namespace Cert.Kernel.Hand

open Cert.Kernel Cert.Kernel.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  show _ ⊢ wp _ _ _ (bodyAt0 t) _
  simp only [bodyAt0, cc0__dense_conv_kernel_eq_skeleton, (dat0 V c).before_in_eq_fetched 0 rfl (fun _ => rfl) (fun _ _ _ => rfl) (fun _ => rfl) t,
    (dat0 V c).before_in_eq_fetched 1 rfl (fun _ => rfl) (fun _ _ _ => rfl) (fun _ => rfl) t,
    (dat0 V c).before_in_eq_fetched 2 rfl (fun _ => rfl) (fun _ _ _ => rfl) (fun _ => rfl) t,
    (dat0 V c).before_in_eq_fetched 3 rfl (fun _ => rfl) (fun _ _ _ => rfl) (fun _ => rfl) t,
    (dat0 V c).before_in_eq_fetched 4 rfl (fun _ => rfl) (fun _ _ _ => rfl) (fun _ => rfl) t]
  unfold cc0__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after0_5]
  show _ = out0_5 ((dat0 V c).fetched 0 t d0) ((dat0 V c).fetched 1 t d1) ((dat0 V c).fetched 2 t d2) ((dat0 V c).fetched 3 t d3) ((dat0 V c).fetched 4 t d4)
  rw [← hf0, ← hf1, ← hf2, ← hf3, ← hf4]
  exact View.read_writes_eq_canon _ _ _ (View.cover_of_tiled _ S5000x128.size (by rfl))

end Cert.Kernel.Hand
-- ==== Proof.K.Reg1.lean ====
import proofs.«402462_j21947282882773_1_alg».proof.Proof.K.Reg1Defs

noncomputable section

namespace Cert.Kernel.Hand

open Cert.Kernel Cert.Kernel.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  show _ ⊢ wp _ _ _ (bodyAt1 t) _
  simp only [bodyAt1, cc1__dense_conv_kernel_eq_skeleton, (dat1 V c).before_in_eq_fetched 0 rfl (fun _ => rfl) (fun _ _ _ => rfl) (fun _ => rfl) t,
    (dat1 V c).before_in_eq_fetched 1 rfl (fun _ => rfl) (fun _ _ _ => rfl) (fun _ => rfl) t,
    (dat1 V c).before_in_eq_fetched 2 rfl (fun _ => rfl) (fun _ _ _ => rfl) (fun _ => rfl) t,
    (dat1 V c).before_in_eq_fetched 3 rfl (fun _ => rfl) (fun _ _ _ => rfl) (fun _ => rfl) t,
    (dat1 V c).before_in_eq_fetched 4 rfl (fun _ => rfl) (fun _ _ _ => rfl) (fun _ => rfl) t]
  unfold cc1__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after1_5]
  show _ = out1_5 ((dat1 V c).fetched 0 t d0) ((dat1 V c).fetched 1 t d1) ((dat1 V c).fetched 2 t d2) ((dat1 V c).fetched 3 t d3) ((dat1 V c).fetched 4 t d4)
  rw [← hf0, ← hf1, ← hf2, ← hf3, ← hf4]
  exact View.read_writes_eq_canon _ _ _ (View.cover_of_tiled _ S5000x128.size (by rfl))

end Cert.Kernel.Hand
-- ==== Proof.K.Reg2.lean ====
import proofs.«402462_j21947282882773_1_alg».proof.Proof.K.Reg2Defs

noncomputable section

namespace Cert.Kernel.Hand

open Cert.Kernel Cert.Kernel.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl]
  show _ ⊢ wp _ _ _ (bodyAt2 t) _
  simp only [bodyAt2, cc2__dense_conv_kernel_eq_skeleton, (dat2 V c).before_in_eq_fetched 0 rfl (fun _ => rfl) (fun _ _ _ => rfl) (fun _ => rfl) t,
    (dat2 V c).before_in_eq_fetched 1 rfl (fun _ => rfl) (fun _ _ _ => rfl) (fun _ => rfl) t,
    (dat2 V c).before_in_eq_fetched 2 rfl (fun _ => rfl) (fun _ _ _ => rfl) (fun _ => rfl) t,
    (dat2 V c).before_in_eq_fetched 3 rfl (fun _ => rfl) (fun _ _ _ => rfl) (fun _ => rfl) t,
    (dat2 V c).before_in_eq_fetched 4 rfl (fun _ => rfl) (fun _ _ _ => rfl) (fun _ => rfl) t]
  unfold cc2__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after2_5]
  show _ = out2_5 ((dat2 V c).fetched 0 t d0) ((dat2 V c).fetched 1 t d1) ((dat2 V c).fetched 2 t d2) ((dat2 V c).fetched 3 t d3) ((dat2 V c).fetched 4 t d4)
  rw [← hf0, ← hf1, ← hf2, ← hf3, ← hf4]
  exact View.read_writes_eq_canon _ _ _ (View.cover_of_tiled _ S5000x128.size (by rfl))

end Cert.Kernel.Hand
-- ==== Proof.K.Reg3.lean ====
import proofs.«402462_j21947282882773_1_alg».proof.Proof.K.Reg3Defs

noncomputable section

namespace Cert.Kernel.Hand

open Cert.Kernel Cert.Kernel.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  show _ ⊢ wp _ _ _ (bodyAt3 t) _
  simp only [bodyAt3, cc3__dense_conv_kernel_eq_skeleton, (dat3 V c).before_in_eq_fetched 0 rfl (fun _ => rfl) (fun _ _ _ => rfl) (fun _ => rfl) t,
    (dat3 V c).before_in_eq_fetched 1 rfl (fun _ => rfl) (fun _ _ _ => rfl) (fun _ => rfl) t,
    (dat3 V c).before_in_eq_fetched 2 rfl (fun _ => rfl) (fun _ _ _ => rfl) (fun _ => rfl) t,
    (dat3 V c).before_in_eq_fetched 3 rfl (fun _ => rfl) (fun _ _ _ => rfl) (fun _ => rfl) t,
    (dat3 V c).before_in_eq_fetched 4 rfl (fun _ => rfl) (fun _ _ _ => rfl) (fun _ => rfl) t]
  unfold cc3__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after3_5]
  show _ = out3_5 ((dat3 V c).fetched 0 t d0) ((dat3 V c).fetched 1 t d1) ((dat3 V c).fetched 2 t d2) ((dat3 V c).fetched 3 t d3) ((dat3 V c).fetched 4 t d4)
  rw [← hf0, ← hf1, ← hf2, ← hf3, ← hf4]
  exact View.read_writes_eq_canon _ _ _ (View.cover_of_tiled _ S5000x128.size (by rfl))

end Cert.Kernel.Hand
-- ==== Proof.K.Reg4.lean ====
import proofs.«402462_j21947282882773_1_alg».proof.Proof.K.Reg4Defs

noncomputable section

namespace Cert.Kernel.Hand

open Cert.Kernel Cert.Kernel.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl]
  show _ ⊢ wp _ _ _ (bodyAt4 t) _
  simp only [bodyAt4, cc4__mlp_kernel_eq_skeleton, (dat4 V c).before_in_eq_fetched 0 rfl (fun _ => rfl) (fun _ _ _ => rfl) (fun _ => rfl) t,
    (dat4 V c).before_in_eq_fetched 1 rfl (fun _ => rfl) (fun _ _ _ => rfl) (fun _ => rfl) t,
    (dat4 V c).before_in_eq_fetched 2 rfl (fun _ => rfl) (fun _ _ _ => rfl) (fun _ => rfl) t,
    (dat4 V c).before_in_eq_fetched 3 rfl (fun _ => rfl) (fun _ _ _ => rfl) (fun _ => rfl) t,
    (dat4 V c).before_in_eq_fetched 4 rfl (fun _ => rfl) (fun _ _ _ => rfl) (fun _ => rfl) t]
  unfold cc4__mlp_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after4_5]
  show _ = out4_5 ((dat4 V c).fetched 0 t d0) ((dat4 V c).fetched 1 t d1) ((dat4 V c).fetched 2 t d2) ((dat4 V c).fetched 3 t d3) ((dat4 V c).fetched 4 t d4)
  rw [← hf0, ← hf1, ← hf2, ← hf3, ← hf4]
  exact View.read_writes_eq_canon _ _ _ (View.cover_of_tiled _ S5000x1.size (by rfl))

end Cert.Kernel.Hand
-- ==== Proof.K.Reg5Run.lean ====
import proofs.«402462_j21947282882773_1_alg».proof.Proof.K.Reg5Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

theorem zero2 : (![0, 0] : Fin 2 → ℕ) = fun _ => 0 := by
  funext a; fin_cases a <;> rfl

-- The two column stores tile the accumulator, so they hide whatever was stored before them.
theorem read_acc_over {sg : RefSig} {κ : Kind} {sp : Space} (v : View sg κ sp S1024x2 .f32) (f : v.ty.Contents (Elt F))
    (p1 p0 : Vec F S1024x1 .f32) (L' : List (View.Piece (Elt F) S1024x2 .f32)) :
    v.read (Elt F) (v.writes (Elt F) f (⟨col1_5, p1⟩ :: ⟨col0_5, p0⟩ :: L')) = View.canon [⟨col1_5, p1⟩, ⟨col0_5, p0⟩] :=
  (congrArg (v.read (Elt F)) (View.writes_append v f [⟨col1_5, p1⟩, ⟨col0_5, p0⟩] L')).trans
    (View.read_writes_eq_canon v _ _ (View.cover_of_tiled [⟨col1_5, p1⟩, ⟨col0_5, p0⟩] S1024x1.size (by rfl)))

-- On the second axis column 0 ends where column 1 begins.
theorem col0_col1_disjoint : Disjoint col0_5.set col1_5.toLoadRect.set :=
  Rect.unit_disjoint (1 : Fin 2) (Or.inl (by decide))

def held5 (c : Dev nD) (arg1 : Memref sig .tc .vmem S2000x1 .f32) (arg2 : Memref sig .tc .vmem S2000x1 .i32)
    (arg3 : Memref sig .tc .vmem S1024x1 .f32) (arg4 : Memref sig .tc .vmem S1024x2 .f32)
    (y : Vec F S2000x1 .f32) (b : Vec F S2000x1 .i32) (xo : Vec F S1024x1 .f32) (xs : Vec F S1024x2 .f32) : sProp 𝕄 :=
  iprop(owns (c : Thread nD τ) arg4 fullShare xs ∗ owns (c : Thread nD τ) arg3 fullShare xo
    ∗ owns (c : Thread nD τ) arg1 fullShare y ∗ owns (c : Thread nD τ) arg2 fullShare b)

set_option maxHeartbeats 1000000 in
-- The body in its three control cases: the first point resets the accumulator before the two column updates; the last point also stores the output.
theorem kernel5 (c : Dev nD) (E : Set ℕ) (i : grid5.Coords)
    (arg1 : Memref sig .tc .vmem S2000x1 .f32) (harg1 : arg1.IsWhole)
    (arg2 : Memref sig .tc .vmem S2000x1 .i32) (harg2 : arg2.IsWhole)
    (arg3 : Memref sig .tc .vmem S1024x1 .f32) (harg3 : arg3.IsWhole)
    (arg4 : Memref sig .tc .vmem S1024x2 .f32) (harg4 : arg4.IsWhole)
    (y : Vec F S2000x1 .f32) (b : Vec F S2000x1 .i32) (xo : Vec F S1024x1 .f32) (xs : Vec F S1024x2 .f32)
    (K : PUnit → sProp 𝕄) (xo' : Vec F S1024x1 .f32) (xs' : Vec F S1024x2 .f32)
    (hcase : (cond5_0 i ∧ ¬cond5_1 i ∧ xs' = accStep5 (k5_pay1 (F := F)) y b ∧ xo' = xo)
      ∨ (¬cond5_0 i ∧ ¬cond5_1 i ∧ xs' = accStep5 xs y b ∧ xo' = xo)
      ∨ (¬cond5_0 i ∧ cond5_1 i ∧ xs' = accStep5 xs y b ∧ xo' = out5_2 (accStep5 xs y b))) :
    iprop(held5 c arg1 arg2 arg3 arg4 y b xo xs ∗ (held5 c arg1 arg2 arg3 arg4 y b xo' xs' -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel held5 owns
  rcases hcase with ⟨hc0, hc1, rfl, rfl⟩ | ⟨hc0, hc1, rfl, rfl⟩ | ⟨hc0, hc1, rfl, rfl⟩
  all_goals
    iintro ⟨⟨⟨%f4, %h4, H4⟩, ⟨%f3, %h3, H3⟩, ⟨%f1, %h1, H1⟩, ⟨%f2, %h2, H2⟩⟩, Hk⟩
    subst h1 h2 h3 h4
    sl_exec (disch := first | exact hc0 | exact hc1)
    sl_step
    iapply Hk
    isplitl [H4]
    · iexists _; isplitr; swap; · iexact H4
      ipureintro
      sl_unfold_run_names
      rw [read_acc_over]
      try rw [View.readCov_cons_of_disjoint _ ⟨col0_5, _⟩ _ col1_5.toLoadRect col0_col1_disjoint]
      simp only [View.readCov_eq_canon', View.canon_unit_zero (S := S1024x2) zero2, View.readAt_eq_ld, View.ld_unit_zero (S := S2000x1) zero2]
      rfl
    first
    | sl_close
    | isplitl [H3]
      · iexists _; isplitr; swap; · iexact H3
        ipureintro
        sl_unfold_run_names
        rw [View.read_writes_eq_canon _ _ _ fun y => ⟨_, List.mem_singleton_self _, View.mem_set_unit_zero zero2 inb_S1024x1_S1024x1_0_0 y⟩]
        simp only [View.readCov_eq_canon', View.readAt_eq_ld, View.ld_unit_zero (S := S2000x1) zero2]
        rfl
      sl_close

end Cert.Kernel.Hand

end
-- ==== Proof.K.Reg5.lean ====
import proofs.«402462_j21947282882773_1_alg».proof.Proof.K.Reg5Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Over the 50 points: point 0 alone resets, point 49 alone stores the output.
theorem pts5 : ∀ t : Fin cfg5.N, (cond5_0 (grid5.coords t) ↔ t.val = 0) ∧ (cond5_1 (grid5.coords t) ↔ t.val = 49)
    ∧ (t.val = 49 → idle5 2 (grid5.coords t) = false)
    ∧ (t.val ≠ 49 → idle5 2 (grid5.coords t) = true ∧ (win5 2).flush t = false) :=
  (by decide +kernel : ∀ t : Fin grid5.N, _)

variable (V : (c : Dev nD) → (b : Ref sig .tc) → Buf (Elt F) ((c : Thread nD τ).loc b))

theorem before5_0 (c : Dev nD) (t : Fin cfg5.N) (d) : (dat5 V c).before 0 t d = iblk5 V c 0 t :=
  (dat5 V c).before_fetched 0 t (fetch5_0 t) d
theorem before5_1 (c : Dev nD) (t : Fin cfg5.N) (d) : (dat5 V c).before 1 t d = iblk5 V c 1 t :=
  (dat5 V c).before_fetched 1 t (fetch5_1 t) d

theorem Phi5_succ (c : Dev nD) (t : Fin cfg5.N) : (dat5 V c).Φ t.succ = inv5 c (acc5 V c t.val t.isLt) := rfl

theorem PhiA5_eq (c : Dev nD) :
    (Pipeline.ΦA spec5 c : sProp 𝕄)
      = iprop(iprop((∃ d, owns (c : Thread nD τ) scM5 fullShare d)
          ∗ (Pipeline.scopedRestBut (Ix := Unit) (Name := ℕ) (U := UR sig nD τ) (Lvl := ℕ) (Val := Elt F) spec5 c [cc5_scratch0] : sProp 𝕄))
        ∗ (∃ r, prngReg c r)) := by
  unfold Pipeline.ΦA; rw [scopedRest5_split]; simp only [scM5, owns_whole]; try rfl

set_option maxHeartbeats 4800000 in
-- Each point takes the accumulator from the invariant and returns it one accumulation step later.
theorem body_obligation5 (c : Dev nD) : BodyObligation (dat5 (F := F) V c) (defs₀ (F := F)) Variants.none () Set.univ := fun t => by
  rw [bigSep_W5, bigSep_W5]
  show _ ⊢ wp _ _ _ (bodyAt5 t) _
  obtain ⟨e0, e1, l2, i2⟩ := pts5 t
  simp only [before5_0, before5_1, after5_0, after5_1, after5_2]
  rw [show (dat5 V c).owesAt () t.succ = (dat5 V c).owesAt () t.castSucc from rfl, Phi5_succ]
  obtain ⟨n, hn⟩ := t
  cases n with
  | zero =>
    obtain ⟨hi, hf⟩ := i2 (by decide : (0 : ℕ) ≠ 49)
    rw [hi, hf]; dsimp only
    rw [show (dat5 V c).Φ (⟨0, hn⟩ : Fin cfg5.N).castSucc = Pipeline.ΦA spec5 c from rfl, PhiA5_eq]
    unfold inv5
    iintro ⟨⟨⟨⟨%d, HS⟩, HR⟩, Hg⟩, Ho, ⟨%d0, H0⟩, ⟨%d1, H1⟩, ⟨%d2, H2⟩⟩
    iapply (kernel5 c Set.univ _ _ _ _ _ _ _ _ _ (iblk5 V c 0 ⟨_, hn⟩) (iblk5 V c 1 ⟨_, hn⟩) _ d _ _ _ (.inl ⟨e0.mpr rfl, fun h => absurd (e1.mp h) (by decide : (0 : ℕ) ≠ 49), rfl, rfl⟩))
    unfold held5
    isplitl [HS H0 H1 H2]; · sl_close
    iintro ⟨HS, H2, H0, H1⟩
    iframe
    isplitl [HS]; · iexact HS
    iexists _; iexact H2
  | succ n =>
    rw [show (dat5 V c).Φ (⟨n + 1, hn⟩ : Fin cfg5.N).castSucc = inv5 c (acc5 V c n (Nat.lt_of_succ_lt hn)) from rfl]
    unfold inv5
    by_cases h1 : n + 1 = 49
    · rw [l2 h1]; dsimp only
      obtain rfl : n = 48 := by omega
      iintro ⟨⟨HS, HR, Hg⟩, Ho, ⟨%d0, H0⟩, ⟨%d1, H1⟩, ⟨%d2, H2⟩⟩
      iapply (kernel5 c Set.univ _ _ _ _ _ _ _ _ _ (iblk5 V c 0 ⟨_, hn⟩) (iblk5 V c 1 ⟨_, hn⟩) _ _ _ _ _ (.inr (.inr ⟨fun h => absurd (e0.mp h) (Nat.succ_ne_zero _), e1.mpr h1, rfl, rfl⟩)))
      unfold held5
      isplitl [HS H0 H1 H2]; · sl_close
      iintro ⟨HS, H2, H0, H1⟩
      iframe
      isplitl [HS]; · iexact HS
      iexact H2
    · obtain ⟨hi, hf⟩ := i2 h1
      rw [hi, hf]; dsimp only
      iintro ⟨⟨HS, HR, Hg⟩, Ho, ⟨%d0, H0⟩, ⟨%d1, H1⟩, ⟨%d2, H2⟩⟩
      iapply (kernel5 c Set.univ _ _ _ _ _ _ _ _ _ (iblk5 V c 0 ⟨_, hn⟩) (iblk5 V c 1 ⟨_, hn⟩) _ _ _ _ _ (.inr (.inl ⟨fun h => absurd (e0.mp h) (Nat.succ_ne_zero n), fun h => h1 (e1.mp h), rfl, rfl⟩)))
      unfold held5
      isplitl [HS H0 H1 H2]; · sl_close
      iintro ⟨HS, H2, H0, H1⟩
      iframe
      isplitl [HS]; · iexact HS
      iexists _; iexact H2

theorem hin5 (c : Dev nD) : Pipeline.ΦA spec5 c ⊢ (dat5 (F := F) V c).Φ 0 :=
  Idealize.SL.BI.Entails.refl _

-- After the last point the accumulator's named contents are forgotten.
theorem hout5 (c : Dev nD) : (dat5 (F := F) V c).Φ (Fin.last cfg5.N) ⊢ Pipeline.ΦA spec5 c := by
  rw [show (dat5 V c).Φ (Fin.last cfg5.N) = inv5 c (acc5 V c 49 (by decide)) from rfl, PhiA5_eq]
  unfold inv5
  iintro ⟨HS, HR, Hg⟩
  iframe
  iexists _; iexact HS

theorem index5_2 (t : Fin cfg5.N) : (fun a => win5_2.index t a * main_v96.ty.shape.size a) = fun _ => 0 :=
  funext fun a => by fin_cases a <;> rfl

-- The output's one block is the whole array, so every element lies in the last point's block.
theorem mem_blk5_2 (h : 49 < cfg5.N) (i : S1024x1.Idx) : i ∈ ((cfg5.win 2).blk ⟨49, h⟩).view.set := by
  show i ∈ ((View.whole main_v96).slice (win5_2.rect ⟨49, h⟩)).set
  rw [View.set_slice_whole]
  exact View.mem_set_unit_zero (index5_2 _) _ i

theorem flushed5_2 (c : Dev nD) (t : Fin cfg5.N) (hf : (cfg5.win 2).flush t = true) :
    (dat5 V c).flushed 2 t = ((cfg5.win 2).blk t).view.read (Elt F) (out5_2 (acc5 V c 49 (by decide))) := by
  show (cfg5.win 2).cut (grid5.coords t) ((dat5 V c).after 2 t) = _
  rw [after5_2]
  exact (Memref.read_access_unit_zero (Elt F) main_v96 (index5_2 t) (fun a => by rw [congrFun (index5_2 t) a]; simp) _).symm

theorem arr5_2 (c : Dev nD) : (dat5 V c).arrAt 2 cfg5.N = out5_2 (acc5 V c 49 (by decide)) :=
  (dat5 V c).arrAt_eq_of_cover 2 _ (flushed5_2 V c) fun i =>
    ⟨⟨49, by decide⟩, (flush5_2 _).mpr (by decide), mem_blk5_2 _ i⟩

end Cert.Kernel.Hand

end
-- ==== Proof.LibRegion.lean ====
import Idealize.ShloMosaic.Lib.Pipeline.RegionsLoop
import Idealize.ShloMosaic.Lib.Pipeline.Frame

set_option backward.isDefEq.respectTransparency.types false

noncomputable section

namespace Cert.RegionLib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)

variable {nD : Nat} {τ : Topo} {sig : RefSig} {Λ₀ : Labels} {P : Type} [Fintype P] {F : FTy → Type} [FloatOps F]

local notation "𝕄" => MT nD τ sig Unit (Elt F) ℕ (UR sig nD τ) ℕ

abbrev Lz : GSem nD τ sig → Finset Unit := fun _ => ∅
abbrev lvz : GSem nD τ sig → Unit → ℕ := fun _ _ => 0
abbrev Rest (c : Dev nD) : sProp 𝕄 := iprop((∃ r, prngReg c r) ∗ ∃ W, owes (c : Thread nD τ) (0 : CellTallies nD τ sig Unit) W)

variable {cfgs : P → Pipeline.Cfg sig Λ₀} (defs₀ : Defs nD τ sig (Elt F) Λ₀)
  (pdats : (p : P) → (c : Dev nD) → Dat τ (Elt F) Unit ℕ (UR sig nD τ) ℕ (cfgs p) c)

-- Region p, entered at the contents Vin, leaves Vout: the region's final arrays at its arrays, Vin elsewhere.
structure RegFacts (p : P) (Vin Vout : Dev nD → Valuation τ sig (Elt F)) : Prop where
  lf : Pipeline.LaunchFacts (nD := nD) (τ := τ) cfgs p
  hbody : ∀ c, BodyObligation (pdats p c) defs₀ Variants.none () Set.univ
  hin : ∀ c, (Pipeline.ΦA (cfgs p).spec c : sProp 𝕄) ⊢ (pdats p c).Φ 0
  hout : ∀ c, (pdats p c).Φ (Fin.last (cfgs p).N) ⊢ (Pipeline.ΦA (cfgs p).spec c : sProp 𝕄)
  hF : ∀ c w, (pdats p c).arrAt w (cfgs p).N = Vout c (Pipeline.arrRef (cfgs p).spec w)
  hrest : ∀ c (b : Ref sig .tc), (∀ w, Pipeline.arrRef (cfgs p).spec w ≠ b) → Vout c b = Vin c b
  hq : ∀ c w, (pdats p c).q w = fullShare := by intros; rfl
  howed : ∀ c t, (pdats p c).owed t = 0 := by intros; rfl
  hrec : ∀ c t, (pdats p c).recorded t = Set.univ := by intros; rfl
  hA : ∀ c w, (pdats p c).A w = Vin c (Pipeline.arrRef (cfgs p).spec w) := by intros; rfl

variable {defs₀ pdats}

-- The region as a segment of the run from Vin to Vout.
def RegFacts.seg {p : P} {Vin Vout : Dev nD → Valuation τ sig (Elt F)} (h : RegFacts defs₀ pdats p Vin Vout) :
    RegionSeg (fun p => (cfgs p).toPCfg (Val := Elt F)) (fun p => (cfgs p).toPCfg_adm) pdats () defs₀ Variants.none Lz lvz p where
  win := h.lf.win.to₀
  block_pos := h.lf.block_pos
  stage_whole := h.lf.stage_whole
  K := PEmpty
  osem k := k.elim
  ho := Pipeline.OwnSemFacts.none _
  hbody c := (h.hbody c).loose
  hwaits := Pipeline.hwaits_of_owed_zero _ _ _ _ Lz lvz p h.howed
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    unfold Pipeline.Dat.owesAt Pipeline.owesWithin Pipeline.Dat.bound
    rw [Pipeline.ownSems0_none, h.howed c, h.hrec c]
    have hsplit := Pipeline.arrays_of_unscopedBufs (p := p) (fun p => (cfgs p).toPCfg (Val := Elt F)) (fun p => (cfgs p).toPCfg_adm) pdats h.lf.win h.lf.arr_whole c
      ((pdats p c).share_full (h.hq c)) (fun b => Vin c b) (h.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine .trans ?_ (h.hin c)
    unfold Pipeline.ΦA
    iintro ⟨Hp, -, Hr⟩
    isplitl [Hr]; · iexact Hr
    iexact Hp
  hout c := by
    refine (h.hout c).trans ?_
    rw [Pipeline.ownSems0_none]; unfold Pipeline.ΦA
    iintro ⟨Hr, Hp⟩
    isplitl [Hp]; · iexact Hp
    isplitr; · iempintro
    iexact Hr
  hexit c := by
    unfold Pipeline.Dat.owesAt Pipeline.owesWithin
    rw [h.howed c]
    have hjoin := Pipeline.unscopedBufs_of_arrays (p := p) (fun p => (cfgs p).toPCfg (Val := Elt F)) (fun p => (cfgs p).toPCfg_adm) (Ix := Unit) (Name := ℕ) (U := UR sig nD τ) (Lvl := ℕ)
      h.lf.win h.lf.arr_whole c pdats ((pdats p c).share_full (h.hq c))
      (fun b => Vin c b) (fun b => Vout c b) ((pdats p c).arrAt · (cfgs p).N) (h.hF c) fun b hb => h.hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem launch_ghost (u : UR sig nD τ) : (ownU u : sProp 𝕄)
    ⊢ |={Set.univ}=> iprop(BI.own (emb₁ u) ∗ bigSep Finset.univ fun _ : Dev nD => (iprop(emp) : sProp 𝕄)) := by
  iintro Hu; imodintro
  isplitl [Hu]
  · iapply (show (ownU u : sProp 𝕄) ⊢ BI.own (emb₁ u) from .rfl)
    iexact Hu
  iapply (show (BI.emp : sProp 𝕄) ⊢ bigSep Finset.univ (fun _ : Dev nD => (BI.emp : sProp 𝕄)) from by rw [BI.bigSep_emp_const])
  iempintro

end Cert.RegionLib

end
-- ==== Proof.K.Run.lean ====
import proofs.«402462_j21947282882773_1_alg».proof.Proof.K.Chain
import proofs.«402462_j21947282882773_1_alg».proof.Proof.K.Reg0
import proofs.«402462_j21947282882773_1_alg».proof.Proof.K.Reg1
import proofs.«402462_j21947282882773_1_alg».proof.Proof.K.Reg2
import proofs.«402462_j21947282882773_1_alg».proof.Proof.K.Reg3
import proofs.«402462_j21947282882773_1_alg».proof.Proof.K.Reg4
import proofs.«402462_j21947282882773_1_alg».proof.Proof.K.Reg5
import proofs.«402462_j21947282882773_1_alg».proof.Proof.LibRegion

noncomputable section

namespace Cert.Kernel.Hand

open Cert.Kernel Cert.Kernel.Gen Cert.RegionLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Every region's proof data, each at the contents its region is entered from.
def pdatsH : (p : Fin 6) → (c : Dev nD) → Dat τ (Elt F) Unit ℕ (UR sig nD τ) ℕ (cfgs p) c
  | ⟨0, _⟩ => fun c => dat0 (X1 m) c
  | ⟨1, _⟩ => fun c => dat1 (X3 m) c
  | ⟨2, _⟩ => fun c => dat2 (X5 m) c
  | ⟨3, _⟩ => fun c => dat3 (X7 m) c
  | ⟨4, _⟩ => fun c => dat4 (X9 m) c
  | ⟨5, _⟩ => fun c => dat5 (X11 m) c

theorem facts0 : RegFacts defs₀ (pdatsH m) 0 (W1 m) (W2 m) :=
  { lf := launch0, hbody := body_obligation0 (X1 m), hin := fun _ => .rfl, hout := fun _ => .rfl, hF := fun c w => (W2_arr m c w).symm, hrest := W2_of_ne m }
theorem facts1 : RegFacts defs₀ (pdatsH m) 1 (W3 m) (W4 m) :=
  { lf := launch1, hbody := body_obligation1 (X3 m), hin := fun _ => .rfl, hout := fun _ => .rfl, hF := fun c w => (W4_arr m c w).symm, hrest := W4_of_ne m }
theorem facts2 : RegFacts defs₀ (pdatsH m) 2 (W5 m) (W6 m) :=
  { lf := launch2, hbody := body_obligation2 (X5 m), hin := fun _ => .rfl, hout := fun _ => .rfl, hF := fun c w => (W6_arr m c w).symm, hrest := W6_of_ne m }
theorem facts3 : RegFacts defs₀ (pdatsH m) 3 (W7 m) (W8 m) :=
  { lf := launch3, hbody := body_obligation3 (X7 m), hin := fun _ => .rfl, hout := fun _ => .rfl, hF := fun c w => (W8_arr m c w).symm, hrest := W8_of_ne m }
theorem facts4 : RegFacts defs₀ (pdatsH m) 4 (W9 m) (W10 m) :=
  { lf := launch4, hbody := body_obligation4 (X9 m), hin := fun _ => .rfl, hout := fun _ => .rfl, hF := fun c w => (W10_arr m c w).symm, hrest := W10_of_ne m }
theorem facts5 : RegFacts defs₀ (pdatsH m) 5 (W11 m) (W12 m) :=
  { lf := launch5, hbody := body_obligation5 (X11 m), hin := hin5 (X11 m), hout := hout5 (X11 m), hF := fun c w => (W12_arr m c w).symm, hrest := W12_of_ne m }

-- A host stretch as a segment from the contents W.
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev TnH (c : Dev nD) : sProp 𝕄 := iprop(StableHlo.held (c : Thread nD τ) (Pipeline.ucRefs τ sig) (W12 m c) ∗ ∃ r, prngReg c r)

abbrev segsH : List (Pipeline.Seg (pcfgs (F := F)) (fun p => (cfgs p).toPCfg_adm) (pdatsH m) () defs₀ Variants.none Lz lvz) :=
  [ .host (hsegH hostOps0 hostOps0_sub hostOps0_fresh (W0 m)), .region (facts0 m).seg,
    .host (hsegH hostOps1 hostOps1_sub hostOps1_fresh (W2 m)), .region (facts1 m).seg,
    .host (hsegH hostOps2 hostOps2_sub hostOps2_fresh (W4 m)), .region (facts2 m).seg,
    .host (hsegH hostOps3 hostOps3_sub hostOps3_fresh (W6 m)), .region (facts3 m).seg,
    .host (hsegH hostOps4 hostOps4_sub hostOps4_fresh (W8 m)), .region (facts4 m).seg,
    .host (hsegH hostOps5 hostOps5_sub hostOps5_fresh (W10 m)), .region (facts5 m).seg ]

set_option backward.isDefEq.respectTransparency.types false in
-- Every weakly fair execution of the program terminates without a fault, its buffers ending at W12.
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) (fun p => (cfgs p).toPCfg_adm) (pdatsH m) () cellOf_inj emb₁ defs₀ Variants.none Lz lvz m ρ main (segsH m)
    (fun c Q => by
      rewrite [main_chain c, Seg.run_eq_chain,
        show (segsH m).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost _)
    (T₀ := fun c => iprop(StableHlo.held (c : Thread nD τ) (Pipeline.ucRefs τ sig) (W0 m c) ∗ Rest c)) (Tₙ := TnH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc.2⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Hand

end
-- ==== Proof.K.Args.lean ====
import proofs.«402462_j21947282882773_1_alg».proof.Proof.K.Chain

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

-- No host stretch writes the buffer and no region after the first has a window on it.
abbrev Untouched (r : Ref sig .tc) : Prop :=
  r ∉ hostOps0_W
  ∧ r ∉ hostOps1_W ∧ (∀ w, Pipeline.arrRef spec1 w ≠ r)
  ∧ r ∉ hostOps2_W ∧ (∀ w, Pipeline.arrRef spec2 w ≠ r)
  ∧ r ∉ hostOps3_W ∧ (∀ w, Pipeline.arrRef spec3 w ≠ r)
  ∧ r ∉ hostOps4_W ∧ (∀ w, Pipeline.arrRef spec4 w ≠ r)
  ∧ r ∉ hostOps5_W ∧ (∀ w, Pipeline.arrRef spec5 w ≠ r)

-- Such a buffer, kept by region 0 too, is read at the last boundary of a memory that agrees with it as it was launched.
theorem kept (c : Dev nD) (s : MemSt nD τ sig (Elt F))
    (h : ∀ b ∈ Pipeline.ucRefs τ sig, s.mem (((c : Thread nD τ)).1, b) = W12 m c b) (r : Ref sig .tc)
    (hs : ¬ (Proc.devRef .tc r : DevRef τ sig).isScoped) (hr : Untouched r)
    (k0 : W2 m c (Proc.devRef .tc r) = W1 m c (Proc.devRef .tc r)) :
    s.mem ((c.tc : Thread nD τ).loc r) = m ((c.tc : Thread nD τ).loc r) := by
  obtain ⟨h0, h1, k1, h2, k2, h3, k3, h4, k4, h5, k5⟩ := hr
  exact (h _ (Finset.mem_filter.mpr ⟨StableHlo.devRef_mem_tcRefs r, hs⟩)).trans <|
    (W12_of_ne m c r k5).trans <| (W11_of m c r h5).trans <| (W10_of_ne m c r k4).trans <| (W9_of m c r h4).trans <|
    (W8_of_ne m c r k3).trans <| (W7_of m c r h3).trans <| (W6_of_ne m c r k2).trans <| (W5_of m c r h2).trans <|
    (W4_of_ne m c r k1).trans <| (W3_of m c r h1).trans <| k0.trans <| (W1_of m c r h0).trans rfl

-- A memory that agrees with the last boundary at every unscoped buffer holds every argument as launched.
theorem args_kept (c : Dev nD) (s : MemSt nD τ sig (Elt F))
    (h : ∀ b ∈ Pipeline.ucRefs τ sig, s.mem (((c : Thread nD τ)).1, b) = W12 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13) :=
  ⟨kept m c s h main_arg0 (by decide) (by decide) (W2_in m c 0 rfl),
   kept m c s h main_arg1 (by decide) (by decide) (W2_of_ne m c _ (by decide)),
   kept m c s h main_arg2 (by decide) (by decide) (W2_of_ne m c _ (by decide)),
   kept m c s h main_arg3 (by decide) (by decide) (W2_of_ne m c _ (by decide)),
   kept m c s h main_arg4 (by decide) (by decide) (W2_of_ne m c _ (by decide)),
   kept m c s h main_arg5 (by decide) (by decide) (W2_of_ne m c _ (by decide)),
   kept m c s h main_arg6 (by decide) (by decide) (W2_of_ne m c _ (by decide)),
   kept m c s h main_arg7 (by decide) (by decide) (W2_of_ne m c _ (by decide)),
   kept m c s h main_arg8 (by decide) (by decide) (W2_of_ne m c _ (by decide)),
   kept m c s h main_arg9 (by decide) (by decide) (W2_of_ne m c _ (by decide)),
   kept m c s h main_arg10 (by decide) (by decide) (W2_of_ne m c _ (by decide)),
   kept m c s h main_arg11 (by decide) (by decide) (W2_of_ne m c _ (by decide)),
   kept m c s h main_arg12 (by decide) (by decide) (W2_of_ne m c _ (by decide)),
   kept m c s h main_arg13 (by decide) (by decide) (W2_of_ne m c _ (by decide))⟩

theorem result_read (c : Dev nD) (s : MemSt nD τ sig (Elt F))
    (h : ∀ b ∈ Pipeline.ucRefs τ sig, s.mem (((c : Thread nD τ)).1, b) = W12 m c b) :
    s.mem ((c.tc : Thread nD τ).loc main_v96) = W12 m c (Proc.devRef .tc main_v96) :=
  h _ (Finset.mem_filter.mpr ⟨StableHlo.devRef_mem_tcRefs main_v96,
    (by decide : ¬ (Proc.devRef .tc main_v96 : DevRef τ sig).isScoped)⟩)

end Cert.Kernel.Hand

end
-- ==== Proof.KI.Reg0Defs.lean ====
import proofs.«402462_j21947282882773_1_alg».proof.Proof.Gen.KernelIdeal.Launch
import proofs.«402462_j21947282882773_1_alg».proof.Proof.Gen.KernelIdeal.Skeleton
import proofs.«402462_j21947282882773_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_5 (x0 : Vec F S5000x64 .f32) (x1 : Vec F S5000x64 .f32) (x2 : Vec F S64x128 .f32) (x3 : Vec F S64x128 .f32)
    (x4 : Vec F S1x128 .f32) : Vec F S5000x128 .f32 :=
  View.canon [⟨r0_3, k0_pay1 (View.ld x0 r0_0) (View.ld x1 r0_0) (View.ld x2 r0_1) (View.ld x3 r0_1) (View.ld x4 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

end Cert.KernelIdeal.Hand
-- ==== Proof.KI.Reg1Defs.lean ====
import proofs.«402462_j21947282882773_1_alg».proof.Proof.Gen.KernelIdeal.Launch
import proofs.«402462_j21947282882773_1_alg».proof.Proof.Gen.KernelIdeal.Skeleton
import proofs.«402462_j21947282882773_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0
abbrev rC1 : Rect S1x128 := Rect.unit (s := S1x128) ![0, 0] S1x128.size inb_S1x128_S1x128_0_0

def out1_5 (x0 : Vec F S5000x128 .f32) (x1 : Vec F S5000x128 .f32) (x2 : Vec F S128x128 .f32) (x3 : Vec F S128x128 .f32)
    (x4 : Vec F S1x128 .f32) : Vec F S5000x128 .f32 :=
  View.canon [⟨rA1, k1_pay1 (View.ld x0 rA1) (View.ld x1 rA1) (View.ld x2 rB1) (View.ld x3 rB1) (View.ld x4 rC1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

end Cert.KernelIdeal.Hand
-- ==== Proof.KI.Reg2Defs.lean ====
import proofs.«402462_j21947282882773_1_alg».proof.Proof.Gen.KernelIdeal.Launch
import proofs.«402462_j21947282882773_1_alg».proof.Proof.Gen.KernelIdeal.Skeleton
import proofs.«402462_j21947282882773_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S5000x128 := Rect.unit (s := S5000x128) ![0, 0] S5000x128.size inb_S5000x128_S5000x128_0_0
abbrev rB2 : Rect S128x128 := Rect.unit (s := S128x128) ![0, 0] S128x128.size inb_S128x128_S128x128_0_0
abbrev rC2 : Rect S1x128 := Rect.unit (s := S1x128) ![0, 0] S1x128.size inb_S1x128_S1x128_0_0

def out2_5 (x0 : Vec F S5000x128 .f32) (x1 : Vec F S5000x128 .f32) (x2 : Vec F S128x128 .f32) (x3 : Vec F S128x128 .f32)
    (x4 : Vec F S1x128 .f32) : Vec F S5000x128 .f32 :=
  View.canon [⟨rA2, k2_pay1 (View.ld x0 rA2) (View.ld x1 rA2) (View.ld x2 rB2) (View.ld x3 rB2) (View.ld x4 rC2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

end Cert.KernelIdeal.Hand
-- ==== Proof.KI.Reg3Defs.lean ====
import proofs.«402462_j21947282882773_1_alg».proof.Proof.Gen.KernelIdeal.Launch
import proofs.«402462_j21947282882773_1_alg».proof.Proof.Gen.KernelIdeal.Skeleton
import proofs.«402462_j21947282882773_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S5000x128 := Rect.unit (s := S5000x128) ![0, 0] S5000x128.size inb_S5000x128_S5000x128_0_0
abbrev rB3 : Rect S128x128 := Rect.unit (s := S128x128) ![0, 0] S128x128.size inb_S128x128_S128x128_0_0
abbrev rC3 : Rect S1x128 := Rect.unit (s := S1x128) ![0, 0] S1x128.size inb_S1x128_S1x128_0_0

def out3_5 (x0 : Vec F S5000x128 .f32) (x1 : Vec F S5000x128 .f32) (x2 : Vec F S128x128 .f32) (x3 : Vec F S128x128 .f32)
    (x4 : Vec F S1x128 .f32) : Vec F S5000x128 .f32 :=
  View.canon [⟨rA3, k3_pay1 (View.ld x0 rA3) (View.ld x1 rA3) (View.ld x2 rB3) (View.ld x3 rB3) (View.ld x4 rC3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

end Cert.KernelIdeal.Hand
-- ==== Proof.KI.Reg4Defs.lean ====
import proofs.«402462_j21947282882773_1_alg».proof.Proof.Gen.KernelIdeal.Launch
import proofs.«402462_j21947282882773_1_alg».proof.Proof.Gen.KernelIdeal.Skeleton
import proofs.«402462_j21947282882773_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Rounds
open Idealize.ShloMosaic.Pipeline (Dat)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x64 := Rect.unit (s := S128x64) ![0, 0] S128x64.size inb_S128x64_S128x64_0_0
abbrev r4_2 : Rect S1x64 := Rect.unit (s := S1x64) ![0, 0] S1x64.size inb_S1x64_S1x64_0_0
abbrev r4_3 : Rect S64x1 := Rect.unit (s := S64x1) ![0, 0] S64x1.size inb_S64x1_S64x1_0_0
abbrev r4_4 : Rect S1x1 := Rect.unit (s := S1x1) ![0, 0] S1x1.size inb_S1x1_S1x1_0_0
abbrev r4_5 : Rect S5000x1 := Rect.unit (s := S5000x1) ![0, 0] S5000x1.size inb_S5000x1_S5000x1_0_0

def out4_5 (x0 : Vec F S5000x128 .f32) (x1 : Vec F S128x64 .f32) (x2 : Vec F S1x64 .f32) (x3 : Vec F S64x1 .f32)
    (x4 : Vec F S1x1 .f32) : Vec F S5000x1 .f32 :=
  View.canon [⟨r4_5, k4_pay1 (View.ld x0 r4_0) (View.ld x1 r4_1) (View.ld x2 r4_2) (View.ld x3 r4_3) (View.ld x4 r4_4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

end Cert.KernelIdeal.Hand
-- ==== Proof.KI.Reg5Defs.lean ====
import proofs.«402462_j21947282882773_1_alg».proof.Proof.Gen.KernelIdeal.Launch
import proofs.«402462_j21947282882773_1_alg».proof.Proof.Gen.KernelIdeal.Skeleton
import proofs.«402462_j21947282882773_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev col0_5 : Rect S1024x2 := Rect.unit (s := S1024x2) ![0, 0] S1024x1.size inb_S1024x2_S1024x1_0_0

abbrev col1_5 : Rect S1024x2 := Rect.unit (s := S1024x2) ![0, 1] S1024x1.size inb_S1024x2_S1024x1_0_1

def accStep5 (a : Vec F S1024x2 .f32) (y : Vec F S2000x1 .f32) (b : Vec F S2000x1 .i32) : Vec F S1024x2 .f32 :=
  View.canon [⟨col1_5, k5_pay4 b (View.ld a col1_5)⟩, ⟨col0_5, k5_pay3 y b (View.ld a col0_5)⟩]

def acc5 (c : Dev nD) : (n : ℕ) → n < cfg5.N → Vec F S1024x2 .f32
  | 0, h => accStep5 (k5_pay1 (F := F)) (iblk5 V c 0 ⟨0, h⟩) (iblk5 V c 1 ⟨0, h⟩)
  | n + 1, h => accStep5 (acc5 c n (Nat.lt_of_succ_lt h)) (iblk5 V c 0 ⟨n + 1, h⟩) (iblk5 V c 1 ⟨n + 1, h⟩)

def out5_2 (a : Vec F S1024x2 .f32) : Vec F S1024x1 .f32 :=
  View.canon [⟨Rect.unit (s := S1024x1) ![0, 0] S1024x1.size inb_S1024x1_S1024x1_0_0, k5_pay5 (View.ld a col0_5) (View.ld a col1_5)⟩]

abbrev scM5 : Memref sig .tc .vmem S1024x2 .f32 := Memref.whole cc5_scratch0

-- The region's state between points, with the accumulator at a.
def inv5 (c : Dev nD) (a : Vec F S1024x2 .f32) : sProp 𝕄 :=
  iprop(owns (c : Thread nD τ) scM5 fullShare a
    ∗ (Pipeline.scopedRestBut (Ix := Unit) (Name := ℕ) (U := UR sig nD τ) (Lvl := ℕ) (Val := Elt F) spec5 c [cc5_scratch0] : sProp 𝕄)
    ∗ (∃ r, prngReg c r))

def PhiS5 (c : Dev nD) : (n : ℕ) → n ≤ cfg5.N → sProp 𝕄
  | 0, _ => Pipeline.ΦA spec5 c
  | n + 1, hn => inv5 c (acc5 V c n hn)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (acc5 V c 49 (by decide))
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (acc5 V c 49 (by decide)) := by dsimp only [dat5]

end Cert.KernelIdeal.Hand

end
-- ==== Proof.KI.Chain.lean ====
import proofs.«402462_j21947282882773_1_alg».proof.Proof.Gen.KernelIdeal.Regions
import proofs.«402462_j21947282882773_1_alg».proof.Proof.KI.Reg0Defs
import proofs.«402462_j21947282882773_1_alg».proof.Proof.KI.Reg1Defs
import proofs.«402462_j21947282882773_1_alg».proof.Proof.KI.Reg2Defs
import proofs.«402462_j21947282882773_1_alg».proof.Proof.KI.Reg3Defs
import proofs.«402462_j21947282882773_1_alg».proof.Proof.KI.Reg4Defs
import proofs.«402462_j21947282882773_1_alg».proof.Proof.KI.Reg5Defs

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev X1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (X1 m) c).arrAt_in w hw _).trans (A_eq0 (X1 m) c w))

theorem W1_of (c : Dev nD) (r : Ref sig .tc) (h : r ∉ hostOps0_W) : W1 m c (Proc.devRef .tc r) = W0 m c (Proc.devRef .tc r) :=
  StableHlo.after_of_writes_sub hostOps0 _ hostOps0_writes h

abbrev W3 : Dev nD → Valuation τ sig (Elt F) := fun c => StableHlo.after hostOps1 (W2 m c)

abbrev X3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W3_of (c : Dev nD) (r : Ref sig .tc) (h : r ∉ hostOps1_W) : W3 m c (Proc.devRef .tc r) = W2 m c (Proc.devRef .tc r) :=
  StableHlo.after_of_writes_sub hostOps1 _ hostOps1_writes h

abbrev W5 : Dev nD → Valuation τ sig (Elt F) := fun c => StableHlo.after hostOps2 (W4 m c)

abbrev X5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (X5 m) c).arrAt w cfg2.N
theorem W6_arr (c : Dev nD) (w : Fin cfg2.W) :
    W6 m c (Proc.devRef .tc (Pipeline.arrRef spec2 w)) = (dat2 (X5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem W5_of (c : Dev nD) (r : Ref sig .tc) (h : r ∉ hostOps2_W) : W5 m c (Proc.devRef .tc r) = W4 m c (Proc.devRef .tc r) :=
  StableHlo.after_of_writes_sub hostOps2 _ hostOps2_writes h

abbrev W7 : Dev nD → Valuation τ sig (Elt F) := fun c => StableHlo.after hostOps3 (W6 m c)

abbrev X7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (X7 m) c).arrAt w cfg3.N
theorem W8_arr (c : Dev nD) (w : Fin cfg3.W) :
    W8 m c (Proc.devRef .tc (Pipeline.arrRef spec3 w)) = (dat3 (X7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

theorem W7_of (c : Dev nD) (r : Ref sig .tc) (h : r ∉ hostOps3_W) : W7 m c (Proc.devRef .tc r) = W6 m c (Proc.devRef .tc r) :=
  StableHlo.after_of_writes_sub hostOps3 _ hostOps3_writes h

abbrev W9 : Dev nD → Valuation τ sig (Elt F) := fun c => StableHlo.after hostOps4 (W8 m c)

abbrev X9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (X9 m) c).arrAt w cfg4.N
theorem W10_arr (c : Dev nD) (w : Fin cfg4.W) :
    W10 m c (Proc.devRef .tc (Pipeline.arrRef spec4 w)) = (dat4 (X9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

theorem W9_of (c : Dev nD) (r : Ref sig .tc) (h : r ∉ hostOps4_W) : W9 m c (Proc.devRef .tc r) = W8 m c (Proc.devRef .tc r) :=
  StableHlo.after_of_writes_sub hostOps4 _ hostOps4_writes h

abbrev W11 : Dev nD → Valuation τ sig (Elt F) := fun c => StableHlo.after hostOps5 (W10 m c)

abbrev X11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (X11 m) c).arrAt w cfg5.N
theorem W12_arr (c : Dev nD) (w : Fin cfg5.W) :
    W12 m c (Proc.devRef .tc (Pipeline.arrRef spec5 w)) = (dat5 (X11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

theorem W11_of (c : Dev nD) (r : Ref sig .tc) (h : r ∉ hostOps5_W) : W11 m c (Proc.devRef .tc r) = W10 m c (Proc.devRef .tc r) :=
  StableHlo.after_of_writes_sub hostOps5 _ hostOps5_writes h

end Cert.KernelIdeal.Hand

end
-- ==== Proof.KI.Reg0.lean ====
import proofs.«402462_j21947282882773_1_alg».proof.Proof.KI.Reg0Defs

noncomputable section

namespace Cert.KernelIdeal.Hand

open Cert.KernelIdeal Cert.KernelIdeal.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  show _ ⊢ wp _ _ _ (bodyAt0 t) _
  simp only [bodyAt0, cc0__dense_conv_kernel_eq_skeleton, (dat0 V c).before_in_eq_fetched 0 rfl (fun _ => rfl) (fun _ _ _ => rfl) (fun _ => rfl) t,
    (dat0 V c).before_in_eq_fetched 1 rfl (fun _ => rfl) (fun _ _ _ => rfl) (fun _ => rfl) t,
    (dat0 V c).before_in_eq_fetched 2 rfl (fun _ => rfl) (fun _ _ _ => rfl) (fun _ => rfl) t,
    (dat0 V c).before_in_eq_fetched 3 rfl (fun _ => rfl) (fun _ _ _ => rfl) (fun _ => rfl) t,
    (dat0 V c).before_in_eq_fetched 4 rfl (fun _ => rfl) (fun _ _ _ => rfl) (fun _ => rfl) t]
  unfold cc0__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after0_5]
  show _ = out0_5 ((dat0 V c).fetched 0 t d0) ((dat0 V c).fetched 1 t d1) ((dat0 V c).fetched 2 t d2) ((dat0 V c).fetched 3 t d3) ((dat0 V c).fetched 4 t d4)
  rw [← hf0, ← hf1, ← hf2, ← hf3, ← hf4]
  exact View.read_writes_eq_canon _ _ _ (View.cover_of_tiled _ S5000x128.size (by rfl))

end Cert.KernelIdeal.Hand
-- ==== Proof.KI.Reg1.lean ====
import proofs.«402462_j21947282882773_1_alg».proof.Proof.KI.Reg1Defs

noncomputable section

namespace Cert.KernelIdeal.Hand

open Cert.KernelIdeal Cert.KernelIdeal.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  show _ ⊢ wp _ _ _ (bodyAt1 t) _
  simp only [bodyAt1, cc1__dense_conv_kernel_eq_skeleton, (dat1 V c).before_in_eq_fetched 0 rfl (fun _ => rfl) (fun _ _ _ => rfl) (fun _ => rfl) t,
    (dat1 V c).before_in_eq_fetched 1 rfl (fun _ => rfl) (fun _ _ _ => rfl) (fun _ => rfl) t,
    (dat1 V c).before_in_eq_fetched 2 rfl (fun _ => rfl) (fun _ _ _ => rfl) (fun _ => rfl) t,
    (dat1 V c).before_in_eq_fetched 3 rfl (fun _ => rfl) (fun _ _ _ => rfl) (fun _ => rfl) t,
    (dat1 V c).before_in_eq_fetched 4 rfl (fun _ => rfl) (fun _ _ _ => rfl) (fun _ => rfl) t]
  unfold cc1__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after1_5]
  show _ = out1_5 ((dat1 V c).fetched 0 t d0) ((dat1 V c).fetched 1 t d1) ((dat1 V c).fetched 2 t d2) ((dat1 V c).fetched 3 t d3) ((dat1 V c).fetched 4 t d4)
  rw [← hf0, ← hf1, ← hf2, ← hf3, ← hf4]
  exact View.read_writes_eq_canon _ _ _ (View.cover_of_tiled _ S5000x128.size (by rfl))

end Cert.KernelIdeal.Hand
-- ==== Proof.KI.Reg2.lean ====
import proofs.«402462_j21947282882773_1_alg».proof.Proof.KI.Reg2Defs

noncomputable section

namespace Cert.KernelIdeal.Hand

open Cert.KernelIdeal Cert.KernelIdeal.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).owesAt () t.succ = (dat2 V c).owesAt () t.castSucc from rfl]
  show _ ⊢ wp _ _ _ (bodyAt2 t) _
  simp only [bodyAt2, cc2__dense_conv_kernel_eq_skeleton, (dat2 V c).before_in_eq_fetched 0 rfl (fun _ => rfl) (fun _ _ _ => rfl) (fun _ => rfl) t,
    (dat2 V c).before_in_eq_fetched 1 rfl (fun _ => rfl) (fun _ _ _ => rfl) (fun _ => rfl) t,
    (dat2 V c).before_in_eq_fetched 2 rfl (fun _ => rfl) (fun _ _ _ => rfl) (fun _ => rfl) t,
    (dat2 V c).before_in_eq_fetched 3 rfl (fun _ => rfl) (fun _ _ _ => rfl) (fun _ => rfl) t,
    (dat2 V c).before_in_eq_fetched 4 rfl (fun _ => rfl) (fun _ _ _ => rfl) (fun _ => rfl) t]
  unfold cc2__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after2_5]
  show _ = out2_5 ((dat2 V c).fetched 0 t d0) ((dat2 V c).fetched 1 t d1) ((dat2 V c).fetched 2 t d2) ((dat2 V c).fetched 3 t d3) ((dat2 V c).fetched 4 t d4)
  rw [← hf0, ← hf1, ← hf2, ← hf3, ← hf4]
  exact View.read_writes_eq_canon _ _ _ (View.cover_of_tiled _ S5000x128.size (by rfl))

end Cert.KernelIdeal.Hand
-- ==== Proof.KI.Reg3.lean ====
import proofs.«402462_j21947282882773_1_alg».proof.Proof.KI.Reg3Defs

noncomputable section

namespace Cert.KernelIdeal.Hand

open Cert.KernelIdeal Cert.KernelIdeal.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  show _ ⊢ wp _ _ _ (bodyAt3 t) _
  simp only [bodyAt3, cc3__dense_conv_kernel_eq_skeleton, (dat3 V c).before_in_eq_fetched 0 rfl (fun _ => rfl) (fun _ _ _ => rfl) (fun _ => rfl) t,
    (dat3 V c).before_in_eq_fetched 1 rfl (fun _ => rfl) (fun _ _ _ => rfl) (fun _ => rfl) t,
    (dat3 V c).before_in_eq_fetched 2 rfl (fun _ => rfl) (fun _ _ _ => rfl) (fun _ => rfl) t,
    (dat3 V c).before_in_eq_fetched 3 rfl (fun _ => rfl) (fun _ _ _ => rfl) (fun _ => rfl) t,
    (dat3 V c).before_in_eq_fetched 4 rfl (fun _ => rfl) (fun _ _ _ => rfl) (fun _ => rfl) t]
  unfold cc3__dense_conv_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after3_5]
  show _ = out3_5 ((dat3 V c).fetched 0 t d0) ((dat3 V c).fetched 1 t d1) ((dat3 V c).fetched 2 t d2) ((dat3 V c).fetched 3 t d3) ((dat3 V c).fetched 4 t d4)
  rw [← hf0, ← hf1, ← hf2, ← hf3, ← hf4]
  exact View.read_writes_eq_canon _ _ _ (View.cover_of_tiled _ S5000x128.size (by rfl))

end Cert.KernelIdeal.Hand
-- ==== Proof.KI.Reg4.lean ====
import proofs.«402462_j21947282882773_1_alg».proof.Proof.KI.Reg4Defs

noncomputable section

namespace Cert.KernelIdeal.Hand

open Cert.KernelIdeal Cert.KernelIdeal.Gen
open Idealize.ShloMosaic Idealize.ShloMosaic.TcCoe Idealize.ShloMosaic.Tactic
open Idealize.SL Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

-- The body returns every input block unchanged; the stored value is the payload of the five blocks read, and the store's rectangle is the whole output shape.
theorem body_obligation4 (c : Dev nD) : BodyObligation (dat4 (F := F) V c) (defs₀ (F := F)) Variants.none () Set.univ := fun t => by
  rw [bigSep_W4, bigSep_W4, show (dat4 V c).Φ t.succ = (dat4 V c).Φ t.castSucc from rfl,
    show (dat4 V c).owesAt () t.succ = (dat4 V c).owesAt () t.castSucc from rfl]
  show _ ⊢ wp _ _ _ (bodyAt4 t) _
  simp only [bodyAt4, cc4__mlp_kernel_eq_skeleton, (dat4 V c).before_in_eq_fetched 0 rfl (fun _ => rfl) (fun _ _ _ => rfl) (fun _ => rfl) t,
    (dat4 V c).before_in_eq_fetched 1 rfl (fun _ => rfl) (fun _ _ _ => rfl) (fun _ => rfl) t,
    (dat4 V c).before_in_eq_fetched 2 rfl (fun _ => rfl) (fun _ _ _ => rfl) (fun _ => rfl) t,
    (dat4 V c).before_in_eq_fetched 3 rfl (fun _ => rfl) (fun _ _ _ => rfl) (fun _ => rfl) t,
    (dat4 V c).before_in_eq_fetched 4 rfl (fun _ => rfl) (fun _ _ _ => rfl) (fun _ => rfl) t]
  unfold cc4__mlp_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [after4_5]
  show _ = out4_5 ((dat4 V c).fetched 0 t d0) ((dat4 V c).fetched 1 t d1) ((dat4 V c).fetched 2 t d2) ((dat4 V c).fetched 3 t d3) ((dat4 V c).fetched 4 t d4)
  rw [← hf0, ← hf1, ← hf2, ← hf3, ← hf4]
  exact View.read_writes_eq_canon _ _ _ (View.cover_of_tiled _ S5000x1.size (by rfl))

end Cert.KernelIdeal.Hand
-- ==== Proof.KI.Reg5Run.lean ====
import proofs.«402462_j21947282882773_1_alg».proof.Proof.KI.Reg5Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop := (Scalar.cmpi .ne (Scalar.extui (Scalar.cmpi .eq (BitVec.ofNat 32 (i 0).val) 0#32)) 0#32) = 1#1
abbrev cond5_1 (i : grid5.Coords) : Prop := k5_cond2 i = 1#1

theorem zero2 : (![0, 0] : Fin 2 → ℕ) = fun _ => 0 := by
  funext a; fin_cases a <;> rfl

-- The two column stores tile the accumulator, so they hide whatever was stored before them.
theorem read_acc_over {sg : RefSig} {κ : Kind} {sp : Space} (v : View sg κ sp S1024x2 .f32) (f : v.ty.Contents (Elt F))
    (p1 p0 : Vec F S1024x1 .f32) (L' : List (View.Piece (Elt F) S1024x2 .f32)) :
    v.read (Elt F) (v.writes (Elt F) f (⟨col1_5, p1⟩ :: ⟨col0_5, p0⟩ :: L')) = View.canon [⟨col1_5, p1⟩, ⟨col0_5, p0⟩] :=
  (congrArg (v.read (Elt F)) (View.writes_append v f [⟨col1_5, p1⟩, ⟨col0_5, p0⟩] L')).trans
    (View.read_writes_eq_canon v _ _ (View.cover_of_tiled [⟨col1_5, p1⟩, ⟨col0_5, p0⟩] S1024x1.size (by rfl)))

-- On the second axis column 0 ends where column 1 begins.
theorem col0_col1_disjoint : Disjoint col0_5.set col1_5.toLoadRect.set :=
  Rect.unit_disjoint (1 : Fin 2) (Or.inl (by decide))

def held5 (c : Dev nD) (arg1 : Memref sig .tc .vmem S2000x1 .f32) (arg2 : Memref sig .tc .vmem S2000x1 .i32)
    (arg3 : Memref sig .tc .vmem S1024x1 .f32) (arg4 : Memref sig .tc .vmem S1024x2 .f32)
    (y : Vec F S2000x1 .f32) (b : Vec F S2000x1 .i32) (xo : Vec F S1024x1 .f32) (xs : Vec F S1024x2 .f32) : sProp 𝕄 :=
  iprop(owns (c : Thread nD τ) arg4 fullShare xs ∗ owns (c : Thread nD τ) arg3 fullShare xo
    ∗ owns (c : Thread nD τ) arg1 fullShare y ∗ owns (c : Thread nD τ) arg2 fullShare b)

set_option maxHeartbeats 1000000 in
-- The body in its three control cases: the first point resets the accumulator before the two column updates; the last point also stores the output.
theorem kernel5 (c : Dev nD) (E : Set ℕ) (i : grid5.Coords)
    (arg1 : Memref sig .tc .vmem S2000x1 .f32) (harg1 : arg1.IsWhole)
    (arg2 : Memref sig .tc .vmem S2000x1 .i32) (harg2 : arg2.IsWhole)
    (arg3 : Memref sig .tc .vmem S1024x1 .f32) (harg3 : arg3.IsWhole)
    (arg4 : Memref sig .tc .vmem S1024x2 .f32) (harg4 : arg4.IsWhole)
    (y : Vec F S2000x1 .f32) (b : Vec F S2000x1 .i32) (xo : Vec F S1024x1 .f32) (xs : Vec F S1024x2 .f32)
    (K : PUnit → sProp 𝕄) (xo' : Vec F S1024x1 .f32) (xs' : Vec F S1024x2 .f32)
    (hcase : (cond5_0 i ∧ ¬cond5_1 i ∧ xs' = accStep5 (k5_pay1 (F := F)) y b ∧ xo' = xo)
      ∨ (¬cond5_0 i ∧ ¬cond5_1 i ∧ xs' = accStep5 xs y b ∧ xo' = xo)
      ∨ (¬cond5_0 i ∧ cond5_1 i ∧ xs' = accStep5 xs y b ∧ xo' = out5_2 (accStep5 xs y b))) :
    iprop(held5 c arg1 arg2 arg3 arg4 y b xo xs ∗ (held5 c arg1 arg2 arg3 arg4 y b xo' xs' -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel held5 owns
  rcases hcase with ⟨hc0, hc1, rfl, rfl⟩ | ⟨hc0, hc1, rfl, rfl⟩ | ⟨hc0, hc1, rfl, rfl⟩
  all_goals
    iintro ⟨⟨⟨%f4, %h4, H4⟩, ⟨%f3, %h3, H3⟩, ⟨%f1, %h1, H1⟩, ⟨%f2, %h2, H2⟩⟩, Hk⟩
    subst h1 h2 h3 h4
    sl_exec (disch := first | exact hc0 | exact hc1)
    sl_step
    iapply Hk
    isplitl [H4]
    · iexists _; isplitr; swap; · iexact H4
      ipureintro
      sl_unfold_run_names
      rw [read_acc_over]
      try rw [View.readCov_cons_of_disjoint _ ⟨col0_5, _⟩ _ col1_5.toLoadRect col0_col1_disjoint]
      simp only [View.readCov_eq_canon', View.canon_unit_zero (S := S1024x2) zero2, View.readAt_eq_ld, View.ld_unit_zero (S := S2000x1) zero2]
      rfl
    first
    | sl_close
    | isplitl [H3]
      · iexists _; isplitr; swap; · iexact H3
        ipureintro
        sl_unfold_run_names
        rw [View.read_writes_eq_canon _ _ _ fun y => ⟨_, List.mem_singleton_self _, View.mem_set_unit_zero zero2 inb_S1024x1_S1024x1_0_0 y⟩]
        simp only [View.readCov_eq_canon', View.readAt_eq_ld, View.ld_unit_zero (S := S2000x1) zero2]
        rfl
      sl_close

end Cert.KernelIdeal.Hand

end
-- ==== Proof.KI.Reg5.lean ====
import proofs.«402462_j21947282882773_1_alg».proof.Proof.KI.Reg5Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Over the 50 points: point 0 alone resets, point 49 alone stores the output.
theorem pts5 : ∀ t : Fin cfg5.N, (cond5_0 (grid5.coords t) ↔ t.val = 0) ∧ (cond5_1 (grid5.coords t) ↔ t.val = 49)
    ∧ (t.val = 49 → idle5 2 (grid5.coords t) = false)
    ∧ (t.val ≠ 49 → idle5 2 (grid5.coords t) = true ∧ (win5 2).flush t = false) :=
  (by decide +kernel : ∀ t : Fin grid5.N, _)

variable (V : (c : Dev nD) → (b : Ref sig .tc) → Buf (Elt F) ((c : Thread nD τ).loc b))

theorem before5_0 (c : Dev nD) (t : Fin cfg5.N) (d) : (dat5 V c).before 0 t d = iblk5 V c 0 t :=
  (dat5 V c).before_fetched 0 t (fetch5_0 t) d
theorem before5_1 (c : Dev nD) (t : Fin cfg5.N) (d) : (dat5 V c).before 1 t d = iblk5 V c 1 t :=
  (dat5 V c).before_fetched 1 t (fetch5_1 t) d

theorem Phi5_succ (c : Dev nD) (t : Fin cfg5.N) : (dat5 V c).Φ t.succ = inv5 c (acc5 V c t.val t.isLt) := rfl

theorem PhiA5_eq (c : Dev nD) :
    (Pipeline.ΦA spec5 c : sProp 𝕄)
      = iprop(iprop((∃ d, owns (c : Thread nD τ) scM5 fullShare d)
          ∗ (Pipeline.scopedRestBut (Ix := Unit) (Name := ℕ) (U := UR sig nD τ) (Lvl := ℕ) (Val := Elt F) spec5 c [cc5_scratch0] : sProp 𝕄))
        ∗ (∃ r, prngReg c r)) := by
  unfold Pipeline.ΦA; rw [scopedRest5_split]; simp only [scM5, owns_whole]; try rfl

set_option maxHeartbeats 4800000 in
-- Each point takes the accumulator from the invariant and returns it one accumulation step later.
theorem body_obligation5 (c : Dev nD) : BodyObligation (dat5 (F := F) V c) (defs₀ (F := F)) Variants.none () Set.univ := fun t => by
  rw [bigSep_W5, bigSep_W5]
  show _ ⊢ wp _ _ _ (bodyAt5 t) _
  obtain ⟨e0, e1, l2, i2⟩ := pts5 t
  simp only [before5_0, before5_1, after5_0, after5_1, after5_2]
  rw [show (dat5 V c).owesAt () t.succ = (dat5 V c).owesAt () t.castSucc from rfl, Phi5_succ]
  obtain ⟨n, hn⟩ := t
  cases n with
  | zero =>
    obtain ⟨hi, hf⟩ := i2 (by decide : (0 : ℕ) ≠ 49)
    rw [hi, hf]; dsimp only
    rw [show (dat5 V c).Φ (⟨0, hn⟩ : Fin cfg5.N).castSucc = Pipeline.ΦA spec5 c from rfl, PhiA5_eq]
    unfold inv5
    iintro ⟨⟨⟨⟨%d, HS⟩, HR⟩, Hg⟩, Ho, ⟨%d0, H0⟩, ⟨%d1, H1⟩, ⟨%d2, H2⟩⟩
    iapply (kernel5 c Set.univ _ _ _ _ _ _ _ _ _ (iblk5 V c 0 ⟨_, hn⟩) (iblk5 V c 1 ⟨_, hn⟩) _ d _ _ _ (.inl ⟨e0.mpr rfl, fun h => absurd (e1.mp h) (by decide : (0 : ℕ) ≠ 49), rfl, rfl⟩))
    unfold held5
    isplitl [HS H0 H1 H2]; · sl_close
    iintro ⟨HS, H2, H0, H1⟩
    iframe
    isplitl [HS]; · iexact HS
    iexists _; iexact H2
  | succ n =>
    rw [show (dat5 V c).Φ (⟨n + 1, hn⟩ : Fin cfg5.N).castSucc = inv5 c (acc5 V c n (Nat.lt_of_succ_lt hn)) from rfl]
    unfold inv5
    by_cases h1 : n + 1 = 49
    · rw [l2 h1]; dsimp only
      obtain rfl : n = 48 := by omega
      iintro ⟨⟨HS, HR, Hg⟩, Ho, ⟨%d0, H0⟩, ⟨%d1, H1⟩, ⟨%d2, H2⟩⟩
      iapply (kernel5 c Set.univ _ _ _ _ _ _ _ _ _ (iblk5 V c 0 ⟨_, hn⟩) (iblk5 V c 1 ⟨_, hn⟩) _ _ _ _ _ (.inr (.inr ⟨fun h => absurd (e0.mp h) (Nat.succ_ne_zero _), e1.mpr h1, rfl, rfl⟩)))
      unfold held5
      isplitl [HS H0 H1 H2]; · sl_close
      iintro ⟨HS, H2, H0, H1⟩
      iframe
      isplitl [HS]; · iexact HS
      iexact H2
    · obtain ⟨hi, hf⟩ := i2 h1
      rw [hi, hf]; dsimp only
      iintro ⟨⟨HS, HR, Hg⟩, Ho, ⟨%d0, H0⟩, ⟨%d1, H1⟩, ⟨%d2, H2⟩⟩
      iapply (kernel5 c Set.univ _ _ _ _ _ _ _ _ _ (iblk5 V c 0 ⟨_, hn⟩) (iblk5 V c 1 ⟨_, hn⟩) _ _ _ _ _ (.inr (.inl ⟨fun h => absurd (e0.mp h) (Nat.succ_ne_zero n), fun h => h1 (e1.mp h), rfl, rfl⟩)))
      unfold held5
      isplitl [HS H0 H1 H2]; · sl_close
      iintro ⟨HS, H2, H0, H1⟩
      iframe
      isplitl [HS]; · iexact HS
      iexists _; iexact H2

theorem hin5 (c : Dev nD) : Pipeline.ΦA spec5 c ⊢ (dat5 (F := F) V c).Φ 0 :=
  Idealize.SL.BI.Entails.refl _

-- After the last point the accumulator's named contents are forgotten.
theorem hout5 (c : Dev nD) : (dat5 (F := F) V c).Φ (Fin.last cfg5.N) ⊢ Pipeline.ΦA spec5 c := by
  rw [show (dat5 V c).Φ (Fin.last cfg5.N) = inv5 c (acc5 V c 49 (by decide)) from rfl, PhiA5_eq]
  unfold inv5
  iintro ⟨HS, HR, Hg⟩
  iframe
  iexists _; iexact HS

theorem index5_2 (t : Fin cfg5.N) : (fun a => win5_2.index t a * main_v96.ty.shape.size a) = fun _ => 0 :=
  funext fun a => by fin_cases a <;> rfl

-- The output's one block is the whole array, so every element lies in the last point's block.
theorem mem_blk5_2 (h : 49 < cfg5.N) (i : S1024x1.Idx) : i ∈ ((cfg5.win 2).blk ⟨49, h⟩).view.set := by
  show i ∈ ((View.whole main_v96).slice (win5_2.rect ⟨49, h⟩)).set
  rw [View.set_slice_whole]
  exact View.mem_set_unit_zero (index5_2 _) _ i

theorem flushed5_2 (c : Dev nD) (t : Fin cfg5.N) (hf : (cfg5.win 2).flush t = true) :
    (dat5 V c).flushed 2 t = ((cfg5.win 2).blk t).view.read (Elt F) (out5_2 (acc5 V c 49 (by decide))) := by
  show (cfg5.win 2).cut (grid5.coords t) ((dat5 V c).after 2 t) = _
  rw [after5_2]
  exact (Memref.read_access_unit_zero (Elt F) main_v96 (index5_2 t) (fun a => by rw [congrFun (index5_2 t) a]; simp) _).symm

theorem arr5_2 (c : Dev nD) : (dat5 V c).arrAt 2 cfg5.N = out5_2 (acc5 V c 49 (by decide)) :=
  (dat5 V c).arrAt_eq_of_cover 2 _ (flushed5_2 V c) fun i =>
    ⟨⟨49, by decide⟩, (flush5_2 _).mpr (by decide), mem_blk5_2 _ i⟩

end Cert.KernelIdeal.Hand

end
-- ==== Proof.KI.Run.lean ====
import proofs.«402462_j21947282882773_1_alg».proof.Proof.KI.Chain
import proofs.«402462_j21947282882773_1_alg».proof.Proof.KI.Reg0
import proofs.«402462_j21947282882773_1_alg».proof.Proof.KI.Reg1
import proofs.«402462_j21947282882773_1_alg».proof.Proof.KI.Reg2
import proofs.«402462_j21947282882773_1_alg».proof.Proof.KI.Reg3
import proofs.«402462_j21947282882773_1_alg».proof.Proof.KI.Reg4
import proofs.«402462_j21947282882773_1_alg».proof.Proof.KI.Reg5
import proofs.«402462_j21947282882773_1_alg».proof.Proof.LibRegion

noncomputable section

namespace Cert.KernelIdeal.Hand

open Cert.KernelIdeal Cert.KernelIdeal.Gen Cert.RegionLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Every region's proof data, each at the contents its region is entered from.
def pdatsH : (p : Fin 6) → (c : Dev nD) → Dat τ (Elt F) Unit ℕ (UR sig nD τ) ℕ (cfgs p) c
  | ⟨0, _⟩ => fun c => dat0 (X1 m) c
  | ⟨1, _⟩ => fun c => dat1 (X3 m) c
  | ⟨2, _⟩ => fun c => dat2 (X5 m) c
  | ⟨3, _⟩ => fun c => dat3 (X7 m) c
  | ⟨4, _⟩ => fun c => dat4 (X9 m) c
  | ⟨5, _⟩ => fun c => dat5 (X11 m) c

theorem facts0 : RegFacts defs₀ (pdatsH m) 0 (W1 m) (W2 m) :=
  { lf := launch0, hbody := body_obligation0 (X1 m), hin := fun _ => .rfl, hout := fun _ => .rfl, hF := fun c w => (W2_arr m c w).symm, hrest := W2_of_ne m }
theorem facts1 : RegFacts defs₀ (pdatsH m) 1 (W3 m) (W4 m) :=
  { lf := launch1, hbody := body_obligation1 (X3 m), hin := fun _ => .rfl, hout := fun _ => .rfl, hF := fun c w => (W4_arr m c w).symm, hrest := W4_of_ne m }
theorem facts2 : RegFacts defs₀ (pdatsH m) 2 (W5 m) (W6 m) :=
  { lf := launch2, hbody := body_obligation2 (X5 m), hin := fun _ => .rfl, hout := fun _ => .rfl, hF := fun c w => (W6_arr m c w).symm, hrest := W6_of_ne m }
theorem facts3 : RegFacts defs₀ (pdatsH m) 3 (W7 m) (W8 m) :=
  { lf := launch3, hbody := body_obligation3 (X7 m), hin := fun _ => .rfl, hout := fun _ => .rfl, hF := fun c w => (W8_arr m c w).symm, hrest := W8_of_ne m }
theorem facts4 : RegFacts defs₀ (pdatsH m) 4 (W9 m) (W10 m) :=
  { lf := launch4, hbody := body_obligation4 (X9 m), hin := fun _ => .rfl, hout := fun _ => .rfl, hF := fun c w => (W10_arr m c w).symm, hrest := W10_of_ne m }
theorem facts5 : RegFacts defs₀ (pdatsH m) 5 (W11 m) (W12 m) :=
  { lf := launch5, hbody := body_obligation5 (X11 m), hin := hin5 (X11 m), hout := hout5 (X11 m), hF := fun c w => (W12_arr m c w).symm, hrest := W12_of_ne m }

-- A host stretch as a segment from the contents W.
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev TnH (c : Dev nD) : sProp 𝕄 := iprop(StableHlo.held (c : Thread nD τ) (Pipeline.ucRefs τ sig) (W12 m c) ∗ ∃ r, prngReg c r)

abbrev segsH : List (Pipeline.Seg (pcfgs (F := F)) (fun p => (cfgs p).toPCfg_adm) (pdatsH m) () defs₀ Variants.none Lz lvz) :=
  [ .host (hsegH hostOps0 hostOps0_sub hostOps0_fresh (W0 m)), .region (facts0 m).seg,
    .host (hsegH hostOps1 hostOps1_sub hostOps1_fresh (W2 m)), .region (facts1 m).seg,
    .host (hsegH hostOps2 hostOps2_sub hostOps2_fresh (W4 m)), .region (facts2 m).seg,
    .host (hsegH hostOps3 hostOps3_sub hostOps3_fresh (W6 m)), .region (facts3 m).seg,
    .host (hsegH hostOps4 hostOps4_sub hostOps4_fresh (W8 m)), .region (facts4 m).seg,
    .host (hsegH hostOps5 hostOps5_sub hostOps5_fresh (W10 m)), .region (facts5 m).seg ]

set_option backward.isDefEq.respectTransparency.types false in
-- Every weakly fair execution of the program terminates without a fault, its buffers ending at W12.
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) (fun p => (cfgs p).toPCfg_adm) (pdatsH m) () cellOf_inj emb₁ defs₀ Variants.none Lz lvz m ρ main (segsH m)
    (fun c Q => by
      rewrite [main_chain c, Seg.run_eq_chain,
        show (segsH m).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost _)
    (T₀ := fun c => iprop(StableHlo.held (c : Thread nD τ) (Pipeline.ucRefs τ sig) (W0 m c) ∗ Rest c)) (Tₙ := TnH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc.2⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Hand

end
-- ==== Proof.KI.Args.lean ====
import proofs.«402462_j21947282882773_1_alg».proof.Proof.KI.Chain

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

-- No host stretch writes the buffer and no region after the first has a window on it.
abbrev Untouched (r : Ref sig .tc) : Prop :=
  r ∉ hostOps0_W
  ∧ r ∉ hostOps1_W ∧ (∀ w, Pipeline.arrRef spec1 w ≠ r)
  ∧ r ∉ hostOps2_W ∧ (∀ w, Pipeline.arrRef spec2 w ≠ r)
  ∧ r ∉ hostOps3_W ∧ (∀ w, Pipeline.arrRef spec3 w ≠ r)
  ∧ r ∉ hostOps4_W ∧ (∀ w, Pipeline.arrRef spec4 w ≠ r)
  ∧ r ∉ hostOps5_W ∧ (∀ w, Pipeline.arrRef spec5 w ≠ r)

-- Such a buffer, kept by region 0 too, is read at the last boundary of a memory that agrees with it as it was launched.
theorem kept (c : Dev nD) (s : MemSt nD τ sig (Elt F))
    (h : ∀ b ∈ Pipeline.ucRefs τ sig, s.mem (((c : Thread nD τ)).1, b) = W12 m c b) (r : Ref sig .tc)
    (hs : ¬ (Proc.devRef .tc r : DevRef τ sig).isScoped) (hr : Untouched r)
    (k0 : W2 m c (Proc.devRef .tc r) = W1 m c (Proc.devRef .tc r)) :
    s.mem ((c.tc : Thread nD τ).loc r) = m ((c.tc : Thread nD τ).loc r) := by
  obtain ⟨h0, h1, k1, h2, k2, h3, k3, h4, k4, h5, k5⟩ := hr
  exact (h _ (Finset.mem_filter.mpr ⟨StableHlo.devRef_mem_tcRefs r, hs⟩)).trans <|
    (W12_of_ne m c r k5).trans <| (W11_of m c r h5).trans <| (W10_of_ne m c r k4).trans <| (W9_of m c r h4).trans <|
    (W8_of_ne m c r k3).trans <| (W7_of m c r h3).trans <| (W6_of_ne m c r k2).trans <| (W5_of m c r h2).trans <|
    (W4_of_ne m c r k1).trans <| (W3_of m c r h1).trans <| k0.trans <| (W1_of m c r h0).trans rfl

-- A memory that agrees with the last boundary at every unscoped buffer holds every argument as launched.
theorem args_kept (c : Dev nD) (s : MemSt nD τ sig (Elt F))
    (h : ∀ b ∈ Pipeline.ucRefs τ sig, s.mem (((c : Thread nD τ)).1, b) = W12 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13) :=
  ⟨kept m c s h main_arg0 (by decide) (by decide) (W2_in m c 0 rfl),
   kept m c s h main_arg1 (by decide) (by decide) (W2_of_ne m c _ (by decide)),
   kept m c s h main_arg2 (by decide) (by decide) (W2_of_ne m c _ (by decide)),
   kept m c s h main_arg3 (by decide) (by decide) (W2_of_ne m c _ (by decide)),
   kept m c s h main_arg4 (by decide) (by decide) (W2_of_ne m c _ (by decide)),
   kept m c s h main_arg5 (by decide) (by decide) (W2_of_ne m c _ (by decide)),
   kept m c s h main_arg6 (by decide) (by decide) (W2_of_ne m c _ (by decide)),
   kept m c s h main_arg7 (by decide) (by decide) (W2_of_ne m c _ (by decide)),
   kept m c s h main_arg8 (by decide) (by decide) (W2_of_ne m c _ (by decide)),
   kept m c s h main_arg9 (by decide) (by decide) (W2_of_ne m c _ (by decide)),
   kept m c s h main_arg10 (by decide) (by decide) (W2_of_ne m c _ (by decide)),
   kept m c s h main_arg11 (by decide) (by decide) (W2_of_ne m c _ (by decide)),
   kept m c s h main_arg12 (by decide) (by decide) (W2_of_ne m c _ (by decide)),
   kept m c s h main_arg13 (by decide) (by decide) (W2_of_ne m c _ (by decide))⟩

theorem result_read (c : Dev nD) (s : MemSt nD τ sig (Elt F))
    (h : ∀ b ∈ Pipeline.ucRefs τ sig, s.mem (((c : Thread nD τ)).1, b) = W12 m c b) :
    s.mem ((c.tc : Thread nD τ).loc main_v96) = W12 m c (Proc.devRef .tc main_v96) :=
  h _ (Finset.mem_filter.mpr ⟨StableHlo.devRef_mem_tcRefs main_v96,
    (by decide : ¬ (Proc.devRef .tc main_v96 : DevRef τ sig).isScoped)⟩)

end Cert.KernelIdeal.Hand

end
-- ==== Proof.Spec.lean ====
import Idealize.ShloMosaic.PureOps.Ideal
import Idealize.ShloMosaic.Lib.ValueIdx

noncomputable section

open Idealize.ShloMosaic Idealize.ShloMosaic.ValueIdx
open scoped BigOperators

namespace Cert.Spec

abbrev Arr (n0 n1 : Nat) : Type := (⟨2, ![n0, n1]⟩ : Shape).Idx → EReal

-- One graph-convolution layer at (p, q): messages times their weights, plus features times theirs, plus the bias.
def convAt {D : Nat} (x agg : Arr 100000 D) (wroot wrel : Arr D 128) (b : Arr 1 128) (p : Fin 100000) (q : Fin 128) : EReal :=
  ((∑ k : Fin D, agg (ix2 p k) * wrel (ix2 k q)) + ∑ k : Fin D, x (ix2 p k) * wroot (ix2 k q)) + b (ix2 0 q)

def conv {D : Nat} (x agg : Arr 100000 D) (wroot wrel : Arr D 128) (b : Arr 1 128) : Arr 100000 128 :=
  fun i => convAt x agg wroot wrel b (i 0) (i 1)

-- The read-out at node p: a rectified hidden layer of 64 units, then one output unit.
def mlpAt (y : Arr 100000 128) (w1 : Arr 128 64) (b1 : Arr 1 64) (w2 : Arr 64 1) (b2 : Arr 1 1) (z : EReal) (p : Fin 100000) : EReal :=
  (∑ k : Fin 64, max ((∑ j : Fin 128, y (ix2 p j) * w1 (ix2 j k)) + b1 (ix2 0 k)) z * w2 (ix2 k 0)) + b2 (ix2 0 0)

def mlp (y : Arr 100000 128) (w1 : Arr 128 64) (b1 : Arr 1 64) (w2 : Arr 64 1) (b2 : Arr 1 1) (z : EReal) : Arr 100000 1 :=
  fun i => mlpAt y w1 b1 w2 b2 z (i 0)

def poolNum (y : Arr 100000 1) (batch : (⟨2, ![100000, 1]⟩ : Shape).Idx → BitVec 32) (g : Fin 1024) : EReal :=
  ∑ n : Fin 100000, if batch (ix2 n 0) = BitVec.ofNat 32 g.val then y (ix2 n 0) else 0

def poolCnt (batch : (⟨2, ![100000, 1]⟩ : Shape).Idx → BitVec 32) (one : EReal) (g : Fin 1024) : EReal :=
  ∑ n : Fin 100000, if batch (ix2 n 0) = BitVec.ofNat 32 g.val then one else 0

-- The mean of each graph's node values, an empty graph counted as one node.
def pool (y : Arr 100000 1) (batch : (⟨2, ![100000, 1]⟩ : Shape).Idx → BitVec 32) (one : EReal) : Arr 1024 1 :=
  fun i => Ideal.div (poolNum y batch (i 0)) (max (poolCnt batch one (i 0)) one)

end Cert.Spec

end
-- ==== Proof.KI.ValLib.lean ====
import proofs.«402462_j21947282882773_1_alg».proof.Proof.Spec
import Idealize.ShloMosaic.Lib.Pipeline.Value
import Idealize.ShloMosaic.Lib.ValueLayout
import Idealize.ShloMosaic.Lib.StackMember

noncomputable section

namespace Cert.KernelIdeal.Hand

open Idealize.ShloMosaic Idealize.ShloMosaic.ValueIdx
open scoped BigOperators

theorem hz : (![0, 0] : Fin 2 → Nat) = fun _ => 0 := funext fun a => by fin_cases a <;> rfl

-- into a zero accumulator, an m×k by k×n product at (a, b) is the sum over the k inner coordinates
theorem matmul_plain_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant (F := Ideal) ⟨2, ![m, n]⟩ .f32 0x00000000#32) (ix2 a b)
      = ∑ c : Fin k, A (ix2 a c) * B (ix2 c b) := by
  subst hd
  exact (Ideal.matmul_constant_zero_apply _ prec A B _).trans
    ((Ideal.dotGeneral_apply _ prec default A B _).symm.trans (StackMember.dotGeneral_plain_apply prec A B a b))

-- every index lies in the block numbered by its coordinates' quotients by the block's sizes
theorem mem_unit_of_div {s : Shape} (idx size : Fin s.rank → Nat) (inb) (i : s.Idx)
    (h : ∀ a, 0 < size a ∧ idx a = (i a).val / size a) :
    i ∈ (Rect.unit (s := s) (fun a => idx a * size a) size inb).set :=
  Rect.mem_set_unit.2 fun a => by
    obtain ⟨hp, e⟩ := h a
    rw [e]
    exact ⟨Nat.div_mul_le_self _ _, Nat.lt_div_mul_add hp⟩

end Cert.KernelIdeal.Hand

end
-- ==== Proof.KI.Val0.lean ====
import proofs.«402462_j21947282882773_1_alg».proof.Proof.KI.Reg0Defs
import proofs.«402462_j21947282882773_1_alg».proof.Proof.KI.ValLib

noncomputable section

namespace Cert.KernelIdeal.Hand

open Cert.KernelIdeal Cert.KernelIdeal.Gen Idealize.ShloMosaic Idealize.ShloMosaic.ValueIdx Idealize.ShloMosaic.TcCoe

-- the stored value at a block's row is the layer's value at the array's row the block's row comes from
theorem out_conv0 (X A : Cert.Spec.Arr 100000 64) (Wroot Wrel : Cert.Spec.Arr 64 128) (B : Cert.Spec.Arr 1 128)
    (x0 x1 : Vec Ideal S5000x64 .f32) (x2 x3 : Vec Ideal S64x128 .f32) (x4 : Vec Ideal S1x128 .f32)
    (j : S5000x128.Idx) (i : S100000x128.Idx)
    (h0 : ∀ k : Fin 64, x0 (ix2 (j 0) k) = X (ix2 (i 0) k)) (h1 : ∀ k : Fin 64, x1 (ix2 (j 0) k) = A (ix2 (i 0) k))
    (h2 : x2 = Wroot) (h3 : x3 = Wrel) (h4 : x4 = B) (hq : j 1 = i 1) :
    out0_5 (F := Ideal) x0 x1 x2 x3 x4 j = Cert.Spec.conv (D := 64) X A Wroot Wrel B i := by
  subst h2 h3 h4
  obtain ⟨p, q, rfl⟩ : ∃ (p : Fin 5000) (q : Fin 128), j = ix2 p q := ⟨j 0, j 1, eq_ix2 j⟩
  have h0' : ∀ k, x0 (ix2 p k) = _ := h0
  have h1' : ∀ k, x1 (ix2 p k) = _ := h1
  have hq' : q = i 1 := hq
  unfold out0_5 k0_pay1
  rw [View.canon_unit_zero hz]
  simp only [View.ld_unit_zero (S := S5000x64) hz, View.ld_unit_zero (S := S64x128) hz, View.ld_unit_zero (S := S1x128) hz]
  rw [addf_apply, addf_apply, matmul_plain_apply, matmul_plain_apply, broadcastTo_1b_ab_apply]
  · simp only [shapeCast_self, truncf_apply, h0', h1', hq']
    rfl
  all_goals rfl

variable (V : (c : Dev nD) → (b : Ref sig .tc) → Buf (Elt Ideal) ((c : Thread nD τ).loc b))

-- the index maps over the grid: the row blocks are at block row t, the weights and the bias row are whole
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ (∀ a, win0_2.index t a = 0) ∧ (∀ a, win0_3.index t a = 0) ∧ (∀ a, win0_4.index t a = 0)
    ∧ win0_5.index t (0 : Fin 2) = t.val ∧ win0_5.index t (1 : Fin 2) = 0 :=
  (by decide +kernel : ∀ t : Fin grid0.N, _)

-- an element of a block sits at block index × block size + its own coordinate: the two row blocks hold the rows of the output's block
theorem rows0 (c : Dev nD) (t : Fin cfg0.N) (j : S5000x128.Idx) :
    (∀ k : Fin 64, iblk0 V c 0 t (ix2 (j 0) k) = V c (Pipeline.arrRef spec0 0) (ix2 (((cfg0.win 5).blk t).view.emb j 0) k))
    ∧ (∀ k : Fin 64, iblk0 V c 1 t (ix2 (j 0) k) = V c (Pipeline.arrRef spec0 1) (ix2 (((cfg0.win 5).blk t).view.emb j 0) k))
    ∧ j 1 = ((cfg0.win 5).blk t).view.emb j 1 := by
  obtain ⟨a0, a1, b0, b1, -, -, -, f0, f1⟩ := idx_facts0 t
  refine ⟨fun k => ?_, fun k => ?_, Fin.ext (win0_5.rect_emb_val_of_index_zero t 1 f1 j).symm⟩
  · show V c (Pipeline.arrRef spec0 0) _ = _
    exact congrArg _ (Shape.idx_ext₂ (congrArg (· * 5000 + 1 * (j 0).val) (a0.trans f0.symm)) (win0_0.rect_emb_val_of_index_zero t 1 a1 _))
  · show V c (Pipeline.arrRef spec0 1) _ = _
    exact congrArg _ (Shape.idx_ext₂ (congrArg (· * 5000 + 1 * (j 0).val) (b0.trans f0.symm)) (win0_1.rect_emb_val_of_index_zero t 1 b1 _))

-- where the block index is zero on every axis the block is the whole array
theorem whole0 (c : Dev nD) (t : Fin cfg0.N) : iblk0 V c 2 t = V c (Pipeline.arrRef spec0 2)
    ∧ iblk0 V c 3 t = V c (Pipeline.arrRef spec0 3) ∧ iblk0 V c 4 t = V c (Pipeline.arrRef spec0 4) := by
  obtain ⟨-, -, -, -, h2, h3, h4, -⟩ := idx_facts0 t
  refine ⟨funext fun y => ?_, funext fun y => ?_, funext fun y => ?_⟩
  · show V c (Pipeline.arrRef spec0 2) _ = _
    exact congrArg _ (funext fun a => Fin.ext (win0_2.rect_emb_val_of_index_zero t a (h2 a) y))
  · show V c (Pipeline.arrRef spec0 3) _ = _
    exact congrArg _ (funext fun a => Fin.ext (win0_3.rect_emb_val_of_index_zero t a (h3 a) y))
  · show V c (Pipeline.arrRef spec0 4) _ = _
    exact congrArg _ (funext fun a => Fin.ext (win0_4.rect_emb_val_of_index_zero t a (h4 a) y))

-- the block a grid point leaves in the output array is that block of the layer's value
theorem flushed_eq0 (c : Dev nD) (t : Fin cfg0.N) :
    (dat0 (F := Ideal) V c).flushed 5 t = ((cfg0.win 5).blk t).view.read (Elt Ideal)
      (Cert.Spec.conv (D := 64) (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 (F := Ideal) V c).after 5 t) = _
  rw [after0_5]
  funext j
  show out0_5 (F := Ideal) _ _ _ _ _ j = Cert.Spec.conv _ _ _ _ _ (((cfg0.win 5).blk t).view.emb j)
  exact out_conv0 _ _ _ _ _ _ _ _ _ _ j _ (rows0 V c t j).1 (rows0 V c t j).2.1
    (whole0 V c t).1 (whole0 V c t).2.1 (whole0 V c t).2.2 (rows0 V c t j).2.2

-- row r of the array lies in the block of point r / 5000, so the twenty blocks cover it
theorem final0 (c : Dev nD) : (dat0 (F := Ideal) V c).arrAt 5 cfg0.N
    = Cert.Spec.conv (D := 64) (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed_eq0 V c t)
    fun (i : S100000x128.Idx) => by
      have hi : (i 0).val < 100000 := (i 0).isLt
      obtain ⟨t, ht⟩ : ∃ t : Fin cfg0.N, t.val = (i 0).val / 5000 :=
        ⟨⟨(i 0).val / 5000, lt_of_lt_of_eq (by omega) N_0.symm⟩, rfl⟩
      obtain ⟨-, -, -, -, -, -, -, f0, f1⟩ := idx_facts0 t
      refine ⟨t, flush0_5 t, ?_⟩
      show i ∈ ((View.whole (Pipeline.arrRef spec0 5)).slice (win0_5.rect t)).set
      rw [View.set_slice_whole]
      exact mem_unit_of_div _ _ _ i (Fin.forall_fin_two.2
        ⟨⟨by decide, f0.trans ht⟩, ⟨by decide, f1.trans (Nat.div_eq_of_lt (i 1).isLt).symm⟩⟩)

end Cert.KernelIdeal.Hand

end
-- ==== Proof.KI.Val1.lean ====
import proofs.«402462_j21947282882773_1_alg».proof.Proof.KI.Reg1Defs
import proofs.«402462_j21947282882773_1_alg».proof.Proof.KI.ValLib

noncomputable section

namespace Cert.KernelIdeal.Hand

open Cert.KernelIdeal Cert.KernelIdeal.Gen Idealize.ShloMosaic Idealize.ShloMosaic.ValueIdx Idealize.ShloMosaic.TcCoe

-- the stored value at a block's row is the layer's value at the array's row the block's row comes from
theorem out_conv1 (X A : Cert.Spec.Arr 100000 128) (Wroot Wrel : Cert.Spec.Arr 128 128) (B : Cert.Spec.Arr 1 128)
    (x0 x1 : Vec Ideal S5000x128 .f32) (x2 x3 : Vec Ideal S128x128 .f32) (x4 : Vec Ideal S1x128 .f32)
    (j : S5000x128.Idx) (i : S100000x128.Idx)
    (h0 : ∀ k : Fin 128, x0 (ix2 (j 0) k) = X (ix2 (i 0) k)) (h1 : ∀ k : Fin 128, x1 (ix2 (j 0) k) = A (ix2 (i 0) k))
    (h2 : x2 = Wroot) (h3 : x3 = Wrel) (h4 : x4 = B) (hq : j 1 = i 1) :
    out1_5 (F := Ideal) x0 x1 x2 x3 x4 j = Cert.Spec.conv (D := 128) X A Wroot Wrel B i := by
  subst h2 h3 h4
  obtain ⟨p, q, rfl⟩ : ∃ (p : Fin 5000) (q : Fin 128), j = ix2 p q := ⟨j 0, j 1, eq_ix2 j⟩
  have h0' : ∀ k, x0 (ix2 p k) = _ := h0
  have h1' : ∀ k, x1 (ix2 p k) = _ := h1
  have hq' : q = i 1 := hq
  unfold out1_5 k1_pay1
  rw [View.canon_unit_zero hz]
  simp only [View.ld_unit_zero (S := S5000x128) hz, View.ld_unit_zero (S := S128x128) hz, View.ld_unit_zero (S := S1x128) hz]
  rw [addf_apply, addf_apply, matmul_plain_apply, matmul_plain_apply, broadcastTo_1b_ab_apply]
  · simp only [shapeCast_self, truncf_apply, h0', h1', hq']
    rfl
  all_goals rfl

variable (V : (c : Dev nD) → (b : Ref sig .tc) → Buf (Elt Ideal) ((c : Thread nD τ).loc b))

-- the index maps over the grid: the row blocks are at block row t, the weights and the bias row are whole
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ (∀ a, win1_2.index t a = 0) ∧ (∀ a, win1_3.index t a = 0) ∧ (∀ a, win1_4.index t a = 0)
    ∧ win1_5.index t (0 : Fin 2) = t.val ∧ win1_5.index t (1 : Fin 2) = 0 :=
  (by decide +kernel : ∀ t : Fin grid1.N, _)

-- an element of a block sits at block index × block size + its own coordinate: the two row blocks hold the rows of the output's block
theorem rows1 (c : Dev nD) (t : Fin cfg1.N) (j : S5000x128.Idx) :
    (∀ k : Fin 128, iblk1 V c 0 t (ix2 (j 0) k) = V c (Pipeline.arrRef spec1 0) (ix2 (((cfg1.win 5).blk t).view.emb j 0) k))
    ∧ (∀ k : Fin 128, iblk1 V c 1 t (ix2 (j 0) k) = V c (Pipeline.arrRef spec1 1) (ix2 (((cfg1.win 5).blk t).view.emb j 0) k))
    ∧ j 1 = ((cfg1.win 5).blk t).view.emb j 1 := by
  obtain ⟨a0, a1, b0, b1, -, -, -, f0, f1⟩ := idx_facts1 t
  refine ⟨fun k => ?_, fun k => ?_, Fin.ext (win1_5.rect_emb_val_of_index_zero t 1 f1 j).symm⟩
  · show V c (Pipeline.arrRef spec1 0) _ = _
    exact congrArg _ (Shape.idx_ext₂ (congrArg (· * 5000 + 1 * (j 0).val) (a0.trans f0.symm)) (win1_0.rect_emb_val_of_index_zero t 1 a1 _))
  · show V c (Pipeline.arrRef spec1 1) _ = _
    exact congrArg _ (Shape.idx_ext₂ (congrArg (· * 5000 + 1 * (j 0).val) (b0.trans f0.symm)) (win1_1.rect_emb_val_of_index_zero t 1 b1 _))

-- where the block index is zero on every axis the block is the whole array
theorem whole1 (c : Dev nD) (t : Fin cfg1.N) : iblk1 V c 2 t = V c (Pipeline.arrRef spec1 2)
    ∧ iblk1 V c 3 t = V c (Pipeline.arrRef spec1 3) ∧ iblk1 V c 4 t = V c (Pipeline.arrRef spec1 4) := by
  obtain ⟨-, -, -, -, h2, h3, h4, -⟩ := idx_facts1 t
  refine ⟨funext fun y => ?_, funext fun y => ?_, funext fun y => ?_⟩
  · show V c (Pipeline.arrRef spec1 2) _ = _
    exact congrArg _ (funext fun a => Fin.ext (win1_2.rect_emb_val_of_index_zero t a (h2 a) y))
  · show V c (Pipeline.arrRef spec1 3) _ = _
    exact congrArg _ (funext fun a => Fin.ext (win1_3.rect_emb_val_of_index_zero t a (h3 a) y))
  · show V c (Pipeline.arrRef spec1 4) _ = _
    exact congrArg _ (funext fun a => Fin.ext (win1_4.rect_emb_val_of_index_zero t a (h4 a) y))

-- the block a grid point leaves in the output array is that block of the layer's value
theorem flushed_eq1 (c : Dev nD) (t : Fin cfg1.N) :
    (dat1 (F := Ideal) V c).flushed 5 t = ((cfg1.win 5).blk t).view.read (Elt Ideal)
      (Cert.Spec.conv (D := 128) (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  funext j
  show out1_5 (F := Ideal) _ _ _ _ _ j = Cert.Spec.conv _ _ _ _ _ (((cfg1.win 5).blk t).view.emb j)
  exact out_conv1 _ _ _ _ _ _ _ _ _ _ j _ (rows1 V c t j).1 (rows1 V c t j).2.1
    (whole1 V c t).1 (whole1 V c t).2.1 (whole1 V c t).2.2 (rows1 V c t j).2.2

-- row r of the array lies in the block of point r / 5000, so the twenty blocks cover it
theorem final1 (c : Dev nD) : (dat1 (F := Ideal) V c).arrAt 5 cfg1.N
    = Cert.Spec.conv (D := 128) (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed_eq1 V c t)
    fun (i : S100000x128.Idx) => by
      have hi : (i 0).val < 100000 := (i 0).isLt
      obtain ⟨t, ht⟩ : ∃ t : Fin cfg1.N, t.val = (i 0).val / 5000 :=
        ⟨⟨(i 0).val / 5000, lt_of_lt_of_eq (by omega) N_1.symm⟩, rfl⟩
      obtain ⟨-, -, -, -, -, -, -, f0, f1⟩ := idx_facts1 t
      refine ⟨t, flush1_5 t, ?_⟩
      show i ∈ ((View.whole (Pipeline.arrRef spec1 5)).slice (win1_5.rect t)).set
      rw [View.set_slice_whole]
      exact mem_unit_of_div _ _ _ i (Fin.forall_fin_two.2
        ⟨⟨by decide, f0.trans ht⟩, ⟨by decide, f1.trans (Nat.div_eq_of_lt (i 1).isLt).symm⟩⟩)

end Cert.KernelIdeal.Hand

end
-- ==== Proof.KI.Val2.lean ====
import proofs.«402462_j21947282882773_1_alg».proof.Proof.KI.Reg2Defs
import proofs.«402462_j21947282882773_1_alg».proof.Proof.KI.Val1

noncomputable section

namespace Cert.KernelIdeal.Hand

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

-- the index maps over the grid: the row blocks are at block row t, the weights and the bias row are whole
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ (∀ a, win2_2.index t a = 0) ∧ (∀ a, win2_3.index t a = 0) ∧ (∀ a, win2_4.index t a = 0)
    ∧ win2_5.index t (0 : Fin 2) = t.val ∧ win2_5.index t (1 : Fin 2) = 0 :=
  (by decide +kernel : ∀ t : Fin grid2.N, _)

-- an element of a block sits at block index × block size + its own coordinate: the two row blocks hold the rows of the output's block
theorem rows2 (c : Dev nD) (t : Fin cfg2.N) (j : S5000x128.Idx) :
    (∀ k : Fin 128, iblk2 V c 0 t (ix2 (j 0) k) = V c (Pipeline.arrRef spec2 0) (ix2 (((cfg2.win 5).blk t).view.emb j 0) k))
    ∧ (∀ k : Fin 128, iblk2 V c 1 t (ix2 (j 0) k) = V c (Pipeline.arrRef spec2 1) (ix2 (((cfg2.win 5).blk t).view.emb j 0) k))
    ∧ j 1 = ((cfg2.win 5).blk t).view.emb j 1 := by
  obtain ⟨a0, a1, b0, b1, -, -, -, f0, f1⟩ := idx_facts2 t
  refine ⟨fun k => ?_, fun k => ?_, Fin.ext (win2_5.rect_emb_val_of_index_zero t 1 f1 j).symm⟩
  · show V c (Pipeline.arrRef spec2 0) _ = _
    exact congrArg _ (Shape.idx_ext₂ (congrArg (· * 5000 + 1 * (j 0).val) (a0.trans f0.symm)) (win2_0.rect_emb_val_of_index_zero t 1 a1 _))
  · show V c (Pipeline.arrRef spec2 1) _ = _
    exact congrArg _ (Shape.idx_ext₂ (congrArg (· * 5000 + 1 * (j 0).val) (b0.trans f0.symm)) (win2_1.rect_emb_val_of_index_zero t 1 b1 _))

-- where the block index is zero on every axis the block is the whole array
theorem whole2 (c : Dev nD) (t : Fin cfg2.N) : iblk2 V c 2 t = V c (Pipeline.arrRef spec2 2)
    ∧ iblk2 V c 3 t = V c (Pipeline.arrRef spec2 3) ∧ iblk2 V c 4 t = V c (Pipeline.arrRef spec2 4) := by
  obtain ⟨-, -, -, -, h2, h3, h4, -⟩ := idx_facts2 t
  refine ⟨funext fun y => ?_, funext fun y => ?_, funext fun y => ?_⟩
  · show V c (Pipeline.arrRef spec2 2) _ = _
    exact congrArg _ (funext fun a => Fin.ext (win2_2.rect_emb_val_of_index_zero t a (h2 a) y))
  · show V c (Pipeline.arrRef spec2 3) _ = _
    exact congrArg _ (funext fun a => Fin.ext (win2_3.rect_emb_val_of_index_zero t a (h3 a) y))
  · show V c (Pipeline.arrRef spec2 4) _ = _
    exact congrArg _ (funext fun a => Fin.ext (win2_4.rect_emb_val_of_index_zero t a (h4 a) y))

-- the block a grid point leaves in the output array is that block of the layer's value
theorem flushed_eq2 (c : Dev nD) (t : Fin cfg2.N) :
    (dat2 (F := Ideal) V c).flushed 5 t = ((cfg2.win 5).blk t).view.read (Elt Ideal)
      (Cert.Spec.conv (D := 128) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  funext j
  show out1_5 (F := Ideal) _ _ _ _ _ j = Cert.Spec.conv _ _ _ _ _ (((cfg2.win 5).blk t).view.emb j)
  exact out_conv1 _ _ _ _ _ _ _ _ _ _ j _ (rows2 V c t j).1 (rows2 V c t j).2.1
    (whole2 V c t).1 (whole2 V c t).2.1 (whole2 V c t).2.2 (rows2 V c t j).2.2

-- row r of the array lies in the block of point r / 5000, so the twenty blocks cover it
theorem final2 (c : Dev nD) : (dat2 (F := Ideal) V c).arrAt 5 cfg2.N
    = Cert.Spec.conv (D := 128) (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed_eq2 V c t)
    fun (i : S100000x128.Idx) => by
      have hi : (i 0).val < 100000 := (i 0).isLt
      obtain ⟨t, ht⟩ : ∃ t : Fin cfg2.N, t.val = (i 0).val / 5000 :=
        ⟨⟨(i 0).val / 5000, lt_of_lt_of_eq (by omega) N_2.symm⟩, rfl⟩
      obtain ⟨-, -, -, -, -, -, -, f0, f1⟩ := idx_facts2 t
      refine ⟨t, flush2_5 t, ?_⟩
      show i ∈ ((View.whole (Pipeline.arrRef spec2 5)).slice (win2_5.rect t)).set
      rw [View.set_slice_whole]
      exact mem_unit_of_div _ _ _ i (Fin.forall_fin_two.2
        ⟨⟨by decide, f0.trans ht⟩, ⟨by decide, f1.trans (Nat.div_eq_of_lt (i 1).isLt).symm⟩⟩)

end Cert.KernelIdeal.Hand

end
-- ==== Proof.KI.Val3.lean ====
import proofs.«402462_j21947282882773_1_alg».proof.Proof.KI.Reg3Defs
import proofs.«402462_j21947282882773_1_alg».proof.Proof.KI.Val1

noncomputable section

namespace Cert.KernelIdeal.Hand

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

-- the index maps over the grid: the row blocks are at block row t, the weights and the bias row are whole
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ (∀ a, win3_2.index t a = 0) ∧ (∀ a, win3_3.index t a = 0) ∧ (∀ a, win3_4.index t a = 0)
    ∧ win3_5.index t (0 : Fin 2) = t.val ∧ win3_5.index t (1 : Fin 2) = 0 :=
  (by decide +kernel : ∀ t : Fin grid3.N, _)

-- an element of a block sits at block index × block size + its own coordinate: the two row blocks hold the rows of the output's block
theorem rows3 (c : Dev nD) (t : Fin cfg3.N) (j : S5000x128.Idx) :
    (∀ k : Fin 128, iblk3 V c 0 t (ix2 (j 0) k) = V c (Pipeline.arrRef spec3 0) (ix2 (((cfg3.win 5).blk t).view.emb j 0) k))
    ∧ (∀ k : Fin 128, iblk3 V c 1 t (ix2 (j 0) k) = V c (Pipeline.arrRef spec3 1) (ix2 (((cfg3.win 5).blk t).view.emb j 0) k))
    ∧ j 1 = ((cfg3.win 5).blk t).view.emb j 1 := by
  obtain ⟨a0, a1, b0, b1, -, -, -, f0, f1⟩ := idx_facts3 t
  refine ⟨fun k => ?_, fun k => ?_, Fin.ext (win3_5.rect_emb_val_of_index_zero t 1 f1 j).symm⟩
  · show V c (Pipeline.arrRef spec3 0) _ = _
    exact congrArg _ (Shape.idx_ext₂ (congrArg (· * 5000 + 1 * (j 0).val) (a0.trans f0.symm)) (win3_0.rect_emb_val_of_index_zero t 1 a1 _))
  · show V c (Pipeline.arrRef spec3 1) _ = _
    exact congrArg _ (Shape.idx_ext₂ (congrArg (· * 5000 + 1 * (j 0).val) (b0.trans f0.symm)) (win3_1.rect_emb_val_of_index_zero t 1 b1 _))

-- where the block index is zero on every axis the block is the whole array
theorem whole3 (c : Dev nD) (t : Fin cfg3.N) : iblk3 V c 2 t = V c (Pipeline.arrRef spec3 2)
    ∧ iblk3 V c 3 t = V c (Pipeline.arrRef spec3 3) ∧ iblk3 V c 4 t = V c (Pipeline.arrRef spec3 4) := by
  obtain ⟨-, -, -, -, h2, h3, h4, -⟩ := idx_facts3 t
  refine ⟨funext fun y => ?_, funext fun y => ?_, funext fun y => ?_⟩
  · show V c (Pipeline.arrRef spec3 2) _ = _
    exact congrArg _ (funext fun a => Fin.ext (win3_2.rect_emb_val_of_index_zero t a (h2 a) y))
  · show V c (Pipeline.arrRef spec3 3) _ = _
    exact congrArg _ (funext fun a => Fin.ext (win3_3.rect_emb_val_of_index_zero t a (h3 a) y))
  · show V c (Pipeline.arrRef spec3 4) _ = _
    exact congrArg _ (funext fun a => Fin.ext (win3_4.rect_emb_val_of_index_zero t a (h4 a) y))

-- the block a grid point leaves in the output array is that block of the layer's value
theorem flushed_eq3 (c : Dev nD) (t : Fin cfg3.N) :
    (dat3 (F := Ideal) V c).flushed 5 t = ((cfg3.win 5).blk t).view.read (Elt Ideal)
      (Cert.Spec.conv (D := 128) (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 (F := Ideal) V c).after 5 t) = _
  rw [after3_5]
  funext j
  show out1_5 (F := Ideal) _ _ _ _ _ j = Cert.Spec.conv _ _ _ _ _ (((cfg3.win 5).blk t).view.emb j)
  exact out_conv1 _ _ _ _ _ _ _ _ _ _ j _ (rows3 V c t j).1 (rows3 V c t j).2.1
    (whole3 V c t).1 (whole3 V c t).2.1 (whole3 V c t).2.2 (rows3 V c t j).2.2

-- row r of the array lies in the block of point r / 5000, so the twenty blocks cover it
theorem final3 (c : Dev nD) : (dat3 (F := Ideal) V c).arrAt 5 cfg3.N
    = Cert.Spec.conv (D := 128) (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed_eq3 V c t)
    fun (i : S100000x128.Idx) => by
      have hi : (i 0).val < 100000 := (i 0).isLt
      obtain ⟨t, ht⟩ : ∃ t : Fin cfg3.N, t.val = (i 0).val / 5000 :=
        ⟨⟨(i 0).val / 5000, lt_of_lt_of_eq (by omega) N_3.symm⟩, rfl⟩
      obtain ⟨-, -, -, -, -, -, -, f0, f1⟩ := idx_facts3 t
      refine ⟨t, flush3_5 t, ?_⟩
      show i ∈ ((View.whole (Pipeline.arrRef spec3 5)).slice (win3_5.rect t)).set
      rw [View.set_slice_whole]
      exact mem_unit_of_div _ _ _ i (Fin.forall_fin_two.2
        ⟨⟨by decide, f0.trans ht⟩, ⟨by decide, f1.trans (Nat.div_eq_of_lt (i 1).isLt).symm⟩⟩)

end Cert.KernelIdeal.Hand

end
-- ==== Proof.KI.Val4.lean ====
import proofs.«402462_j21947282882773_1_alg».proof.Proof.KI.Reg4Defs
import proofs.«402462_j21947282882773_1_alg».proof.Proof.KI.ValLib

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat Cfg Window)
open scoped BigOperators

-- the stored value at a block's row is the read-out of the array's row the block's row comes from
theorem out_mlp4 (Y : Cert.Spec.Arr 100000 128) (W1 : Cert.Spec.Arr 128 64) (B1 : Cert.Spec.Arr 1 64) (W2 : Cert.Spec.Arr 64 1) (B2 : Cert.Spec.Arr 1 1)
    (y : Vec Ideal S5000x128 .f32) (w1 : Vec Ideal S128x64 .f32) (b1 : Vec Ideal S1x64 .f32) (w2 : Vec Ideal S64x1 .f32) (b2 : Vec Ideal S1x1 .f32)
    (j : S5000x1.Idx) (i : S100000x1.Idx)
    (hy : ∀ q : Fin 128, y (ix2 (j 0) q) = Y (ix2 (i 0) q)) (hw1 : w1 = W1) (hb1 : b1 = B1) (hw2 : w2 = W2) (hb2 : b2 = B2) :
    out4_5 (F := Ideal) y w1 b1 w2 b2 j = Cert.Spec.mlp Y W1 B1 W2 B2 (Ideal.ofBits .f32 0x00000000#32) i := by
  subst hw1 hb1 hw2 hb2
  obtain ⟨p, o, rfl⟩ : ∃ (p : Fin 5000) (o : Fin 1), j = ix2 p o := ⟨j 0, j 1, eq_ix2 j⟩
  obtain rfl : o = 0 := Subsingleton.elim _ _
  have hy' : ∀ q, y (ix2 p q) = _ := hy
  unfold out4_5 k4_pay1
  rw [View.canon_unit_zero hz]
  simp only [View.ld_unit_zero (S := S5000x128) hz, View.ld_unit_zero (S := S128x64) hz, View.ld_unit_zero (S := S1x64) hz,
    View.ld_unit_zero (S := S64x1) hz, View.ld_unit_zero (S := S1x1) hz, shapeCast_self]
  rw [addf_apply, matmul_plain_apply, broadcastTo_1b_ab_apply]
  · show _ = Cert.Spec.mlpAt Y w1 b1 w2 b2 _ (i 0)
    unfold Cert.Spec.mlpAt
    congr 1
    refine Finset.sum_congr rfl fun k _ => ?_
    rw [truncf_apply, truncf_apply, maximumf_apply, addf_apply, matmul_plain_apply, broadcastTo_1b_ab_apply, broadcast_apply]
    · simp only [truncf_apply, hy']
      rfl
    · rfl
  · rfl

variable (V : (c : Dev nD) → (b : Ref sig .tc) → Buf (Elt Ideal) ((c : Thread nD τ).loc b))

-- the index maps over the grid: the row blocks are at block row t, the weights and biases are whole
theorem idx_facts4 : ∀ t : Fin cfg4.N,
    win4_0.index t (0 : Fin 2) = t.val ∧ win4_0.index t (1 : Fin 2) = 0
    ∧ (∀ a, win4_1.index t a = 0) ∧ (∀ a, win4_2.index t a = 0) ∧ (∀ a, win4_3.index t a = 0) ∧ (∀ a, win4_4.index t a = 0)
    ∧ win4_5.index t (0 : Fin 2) = t.val ∧ win4_5.index t (1 : Fin 2) = 0 :=
  (by decide +kernel : ∀ t : Fin grid4.N, _)

-- An element of a block sits at block index × block size + its own coordinate, so the node values' block holds the rows of the output's block,
theorem rows4 (c : Dev nD) (t : Fin cfg4.N) (j : S5000x1.Idx) (k : Fin 128) :
    iblk4 V c 0 t (ix2 (j 0) k) = V c (Pipeline.arrRef spec4 0) (ix2 (((cfg4.win 5).blk t).view.emb j 0) k) := by
  obtain ⟨a0, a1, -, -, -, -, f0, -⟩ := idx_facts4 t
  show V c (Pipeline.arrRef spec4 0) _ = _
  exact congrArg _ (Shape.idx_ext₂ (congrArg (· * 5000 + 1 * (j 0).val) (a0.trans f0.symm)) (win4_0.rect_emb_val_of_index_zero t 1 a1 _))

-- and the weights' and biases' blocks, at block index 0, are their whole arrays.
theorem whole4 (c : Dev nD) (t : Fin cfg4.N) :
    iblk4 V c 1 t = V c (Pipeline.arrRef spec4 1) ∧ iblk4 V c 2 t = V c (Pipeline.arrRef spec4 2)
    ∧ iblk4 V c 3 t = V c (Pipeline.arrRef spec4 3) ∧ iblk4 V c 4 t = V c (Pipeline.arrRef spec4 4) := by
  obtain ⟨-, -, h1, h2, h3, h4, -⟩ := idx_facts4 t
  refine ⟨funext fun y => ?_, funext fun y => ?_, funext fun y => ?_, funext fun y => ?_⟩
  · show V c (Pipeline.arrRef spec4 1) _ = _
    exact congrArg _ (funext fun a => Fin.ext (win4_1.rect_emb_val_of_index_zero t a (h1 a) y))
  · show V c (Pipeline.arrRef spec4 2) _ = _
    exact congrArg _ (funext fun a => Fin.ext (win4_2.rect_emb_val_of_index_zero t a (h2 a) y))
  · show V c (Pipeline.arrRef spec4 3) _ = _
    exact congrArg _ (funext fun a => Fin.ext (win4_3.rect_emb_val_of_index_zero t a (h3 a) y))
  · show V c (Pipeline.arrRef spec4 4) _ = _
    exact congrArg _ (funext fun a => Fin.ext (win4_4.rect_emb_val_of_index_zero t a (h4 a) y))

-- A point's block of the output is that block of the read-out: its rows are the array's, the other operands are whole.
theorem flushed4 (c : Dev nD) (t : Fin cfg4.N) :
    (dat4 (F := Ideal) V c).flushed 5 t = ((cfg4.win 5).blk t).view.read (Elt Ideal)
      (Cert.Spec.mlp (V c (Pipeline.arrRef spec4 0)) (V c (Pipeline.arrRef spec4 1)) (V c (Pipeline.arrRef spec4 2))
        (V c (Pipeline.arrRef spec4 3)) (V c (Pipeline.arrRef spec4 4)) (Ideal.ofBits .f32 0x00000000#32)) := by
  show (cfg4.win 5).cut (grid4.coords t) ((dat4 (F := Ideal) V c).after 5 t) = _
  rw [after4_5]
  funext j
  obtain ⟨e1, e2, e3, e4⟩ := whole4 V c t
  show out4_5 (F := Ideal) _ _ _ _ _ j = Cert.Spec.mlp _ _ _ _ _ _ (((cfg4.win 5).blk t).view.emb j)
  exact out_mlp4 _ _ _ _ _ _ _ _ _ _ j _ (rows4 V c t j) e1 e2 e3 e4

-- Row r lies in the block of point r / 5000, so the twenty blocks cover the array.
theorem final4 (c : Dev nD) : (dat4 (F := Ideal) V c).arrAt 5 cfg4.N
    = Cert.Spec.mlp (V c (Pipeline.arrRef spec4 0)) (V c (Pipeline.arrRef spec4 1)) (V c (Pipeline.arrRef spec4 2))
        (V c (Pipeline.arrRef spec4 3)) (V c (Pipeline.arrRef spec4 4)) (Ideal.ofBits .f32 0x00000000#32) :=
  (dat4 (F := Ideal) V c).arrAt_eq_of_cover 5 _ (fun t _ => flushed4 V c t)
    fun (i : S100000x1.Idx) => by
      have hi : (i 0).val < 100000 := (i 0).isLt
      obtain ⟨t, ht⟩ : ∃ t : Fin cfg4.N, t.val = (i 0).val / 5000 :=
        ⟨⟨(i 0).val / 5000, lt_of_lt_of_eq (by omega) N_4.symm⟩, rfl⟩
      obtain ⟨-, -, -, -, -, -, f0, f1⟩ := idx_facts4 t
      refine ⟨t, flush4_5 t, ?_⟩
      show i ∈ ((View.whole (Pipeline.arrRef spec4 5)).slice (win4_5.rect t)).set
      rw [View.set_slice_whole]
      exact mem_unit_of_div _ _ _ i (Fin.forall_fin_two.2
        ⟨⟨by decide, f0.trans ht⟩, ⟨by decide, f1.trans (Nat.div_eq_of_lt (i 1).isLt).symm⟩⟩)

end Cert.KernelIdeal.Hand

end
-- ==== Proof.KI.Val5.lean ====
import proofs.«402462_j21947282882773_1_alg».proof.Proof.KI.Reg5Defs
import proofs.«402462_j21947282882773_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open scoped BigOperators

-- The one-hot matrix at row r, group g: 1 where the row's group number is g, else 0.
theorem onehot5_apply (b : Vec Ideal S2000x1 .i32) (r : Fin 2000) (g : Fin 1024) :
    k5_pay2 (F := Ideal) b (ix2 r g) = if b (ix2 r 0) = BitVec.ofNat 32 g.val then 1 else 0 := by
  unfold k5_pay2
  rw [truncf_apply, sitofp_apply, extui_apply]
  show FloatOps.sitofp (F := Ideal) .f32 ((IntOp.cmpi .eq _ _).setWidth 32) = _
  rw [broadcastTo_apply (shapeCast S2000x1 b shapeCasts_S2000x1_S2000x1) broadcasts_S2000x1_S2000x1024 (ix2 r g) (ix2 r 0) ?_,
    broadcastTo_apply (iota .tc S1x1024 32 [1] iota_S1x1024_d1_w32) broadcasts_S1x1024_S2000x1024 (ix2 r g) (ix2 0 g) ?_]
  · rw [shapeCast_self, iota_single_apply]
    show (((((IntOp.cmpi .eq (b (ix2 r 0)) (BitVec.ofNat 32 g.val)).setWidth 32).toInt : ℝ)) : EReal) = _
    by_cases h : b (ix2 r 0) = BitVec.ofNat 32 g.val
    · simp [IntOp.cmpi, h]
    · simp [IntOp.cmpi, h, beq_eq_false_iff_ne.mpr h]
  all_goals
    intro a
    match a with
    | ⟨0, _⟩ => rfl
    | ⟨1, _⟩ => rfl

-- The one-hot matrix, transposed, times a column R: at group g, R summed over the rows whose group number is g (1 · v = v, 0 · v = 0).
theorem onehotDot5 (b : Vec Ideal S2000x1 .i32) (R : FVec Ideal S2000x1 .bf16) (g : Fin 1024) :
    matmul dot_S2000x1024_S2000x1_S1024x1_0_0_1_1_n_n none (k5_pay2 (F := Ideal) b) R (constant (F := Ideal) S1024x1 .f32 0x00000000#32) (ix2 g 0)
      = ∑ k : Fin 2000, if b (ix2 k 0) = BitVec.ofNat 32 g.val then R (ix2 k 0) else 0 := by
  show FloatOps.matmul dot_S2000x1024_S2000x1_S1024x1_0_0_1_1_n_n none _ R _ _ = _
  rw [Ideal.matmul_constant_zero_apply, ← Equiv.sum_comp (ValueIdx.contrEquiv1 dot_S2000x1024_S2000x1_S1024x1_0_0_1_1_n_n 2000 rfl rfl).symm]
  refine Finset.sum_congr rfl fun k _ => ?_
  have hk := ValueIdx.contrEquiv1_symm_val dot_S2000x1024_S2000x1_S1024x1_0_0_1_1_n_n 2000 rfl rfl k
  have el : _ = ix2 k g :=
    Shape.idx_ext₂ ((DotDims.lhsIdx_val_of_single _ rfl (ix2 g 0) _).trans hk) (by unfold DotDims.lhsIdx; rw [dif_neg (by decide), dif_pos (by decide)]; rfl)
  have er : _ = ix2 k 0 :=
    Shape.idx_ext₂ ((DotDims.rhsIdx_val_of_single _ rfl (ix2 g 0) _).trans hk) (by unfold DotDims.rhsIdx; rw [dif_neg (by decide), dif_pos (by decide)]; rfl)
  rw [el, er, onehot5_apply, ite_mul, one_mul, zero_mul]

theorem sumStep5_apply (y : Vec Ideal S2000x1 .f32) (b : Vec Ideal S2000x1 .i32) (a : Vec Ideal S1024x1 .f32) (g : Fin 1024) :
    k5_pay3 (F := Ideal) y b a (ix2 g 0)
      = a (ix2 g 0) + ∑ k : Fin 2000, if b (ix2 k 0) = BitVec.ofNat 32 g.val then y (ix2 k 0) else 0 := by
  unfold k5_pay3
  rw [shapeCast_self, addf_apply, onehotDot5]
  simp only [truncf_apply, shapeCast_self]

theorem cntStep5_apply (b : Vec Ideal S2000x1 .i32) (a : Vec Ideal S1024x1 .f32) (g : Fin 1024) :
    k5_pay4 (F := Ideal) b a (ix2 g 0)
      = a (ix2 g 0) + ∑ k : Fin 2000, if b (ix2 k 0) = BitVec.ofNat 32 g.val then Ideal.ofBits .f32 0x3F800000#32 else 0 := by
  unfold k5_pay4
  rw [shapeCast_self, addf_apply, onehotDot5]
  rfl

theorem col0_5_emb (g : Fin 1024) : col0_5.emb (ix2 g (0 : Fin 1)) = (ix2 g (0 : Fin 2) : S1024x2.Idx) :=
  Shape.idx_ext₂ (by show 0 + 1 * g.val = g.val; omega) rfl

theorem col1_5_emb (g : Fin 1024) : col1_5.emb (ix2 g (0 : Fin 1)) = (ix2 g (1 : Fin 2) : S1024x2.Idx) :=
  Shape.idx_ext₂ (by show 0 + 1 * g.val = g.val; omega) rfl

-- What column j gains per row: the row's value (j = 0), or one (j = 1).
def addend5 : Fin 2 → EReal → EReal
  | 0, x => x
  | 1, _ => Ideal.ofBits .f32 0x3F800000#32

-- One point's update at group g: column j gains its addends over the block's rows whose group number is g.
theorem accStep5_apply (a : Vec Ideal S1024x2 .f32) (y : Vec Ideal S2000x1 .f32) (b : Vec Ideal S2000x1 .i32) (g : Fin 1024) : ∀ j : Fin 2,
    accStep5 (F := Ideal) a y b (ix2 g j)
      = a (ix2 g j) + ∑ k : Fin 2000, if b (ix2 k 0) = BitVec.ofNat 32 g.val then addend5 j (y (ix2 k 0)) else 0
  | 0 => by
    have h01 := View.canon_cons_of_not_mem (Val := Elt Ideal) (e := .f32) (s := S1024x2) ⟨col1_5, k5_pay4 b (View.ld a col1_5)⟩ [⟨col0_5, k5_pay3 y b (View.ld a col0_5)⟩]
      (show (ix2 g (0 : Fin 2) : S1024x2.Idx) ∉ col1_5.set by rw [Rect.mem_set_unit]; exact fun h => Nat.not_succ_le_zero 0 (h 1).1)
    have e0 := View.canon_cons_emb (Val := Elt Ideal) (e := .f32) col0_5 (k5_pay3 y b (View.ld a col0_5)) [] (ix2 g 0)
    rw [col0_5_emb] at e0
    unfold accStep5
    rw [h01, e0, sumStep5_apply]
    show a (col0_5.emb (ix2 g 0)) + _ = _
    rw [col0_5_emb]
    rfl
  | 1 => by
    have e1 := View.canon_cons_emb (Val := Elt Ideal) (e := .f32) col1_5 (k5_pay4 b (View.ld a col1_5)) [⟨col0_5, k5_pay3 y b (View.ld a col0_5)⟩] (ix2 g 0)
    rw [col1_5_emb] at e1
    unfold accStep5
    rw [e1, cntStep5_apply]
    show a (col1_5.emb (ix2 g 0)) + _ = _
    rw [col1_5_emb]
    rfl

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

abbrev batRows (c : Dev nD) : Fin 100000 → BitVec 32 := fun m => (V c (Pipeline.arrRef spec5 1) : S100000x1.Idx → BitVec 32) (ix2 m 0)
abbrev valRows (c : Dev nD) : Fin 100000 → EReal := fun m => (V c (Pipeline.arrRef spec5 0) : S100000x1.Idx → EReal) (ix2 m 0)

-- Row k of a block at point t is row 2000·t + k of its array.
theorem iblk5_0_row (c : Dev nD) (t : Fin cfg5.N) (k : Fin 2000) (hk : 2000 * t.val + k.val < 100000) :
    (iblk5 (F := Ideal) V c 0 t : Vec Ideal S2000x1 .f32) (ix2 k 0) = valRows V c ⟨2000 * t.val + k.val, hk⟩ := by
  obtain ⟨e0, e1, -, -⟩ := idx_facts5 t
  unfold iblk5
  rw [View.read_apply]
  show V c (Pipeline.arrRef spec5 0) _ = V c (Pipeline.arrRef spec5 0) _
  congr 1
  exact Shape.idx_ext₂ (by show win5_0.index t 0 * 2000 + 1 * k.val = 2000 * t.val + k.val; rw [e0]; omega) (by show win5_0.index t 1 * 1 + 1 * 0 = 0; rw [e1])

theorem iblk5_1_row (c : Dev nD) (t : Fin cfg5.N) (k : Fin 2000) (hk : 2000 * t.val + k.val < 100000) :
    (iblk5 (F := Ideal) V c 1 t : Vec Ideal S2000x1 .i32) (ix2 k 0) = batRows V c ⟨2000 * t.val + k.val, hk⟩ := by
  obtain ⟨-, -, e0, e1⟩ := idx_facts5 t
  unfold iblk5
  rw [View.read_apply]
  show V c (Pipeline.arrRef spec5 1) _ = V c (Pipeline.arrRef spec5 1) _
  congr 1
  exact Shape.idx_ext₂ (by show win5_1.index t 0 * 2000 + 1 * k.val = 2000 * t.val + k.val; rw [e0]; omega) (by show win5_1.index t 1 * 1 + 1 * 0 = 0; rw [e1])

-- Row m's term of column j's grouped sum: the addend of v m when row m's group number is gw, else 0 (and 0 past the last row).
def rowTerm (bat : Fin 100000 → BitVec 32) (v : Fin 100000 → EReal) (gw : BitVec 32) (j : Fin 2) (m : ℕ) : EReal :=
  if h : m < 100000 then (if bat ⟨m, h⟩ = gw then addend5 j (v ⟨m, h⟩) else 0) else 0

theorem sum_rowTerm_all (bat : Fin 100000 → BitVec 32) (v : Fin 100000 → EReal) (gw : BitVec 32) (j : Fin 2) :
    ∑ m : Fin 100000, (if bat m = gw then addend5 j (v m) else 0) = ∑ m ∈ Finset.range 100000, rowTerm bat v gw j m := by
  rw [← Fin.sum_univ_eq_sum_range (fun m => rowTerm bat v gw j m) 100000]
  refine Finset.sum_congr rfl fun m _ => ?_
  unfold rowTerm
  rw [dif_pos m.isLt]

theorem blockSum5 (bat : Fin 100000 → BitVec 32) (v : Fin 100000 → EReal) (gw : BitVec 32) (j : Fin 2)
    (bb : Fin 2000 → BitVec 32) (vb : Fin 2000 → EReal) (n : ℕ) (hn : 2000 * n + 2000 ≤ 100000)
    (hb : ∀ (k : Fin 2000) (h : 2000 * n + k.val < 100000), bb k = bat ⟨2000 * n + k.val, h⟩)
    (hv : ∀ (k : Fin 2000) (h : 2000 * n + k.val < 100000), vb k = v ⟨2000 * n + k.val, h⟩) :
    ∑ k : Fin 2000, (if bb k = gw then addend5 j (vb k) else 0) = ∑ k ∈ Finset.range 2000, rowTerm bat v gw j (2000 * n + k) := by
  rw [← Fin.sum_univ_eq_sum_range (fun k => rowTerm bat v gw j (2000 * n + k)) 2000]
  refine Finset.sum_congr rfl fun k _ => ?_
  have h : 2000 * n + k.val < 100000 := by have := k.isLt; omega
  unfold rowTerm
  rw [dif_pos h, hb k h, hv k h]

theorem zeros5_apply (i : S1024x2.Idx) : k5_pay1 (F := Ideal) i = 0 := by
  unfold k5_pay1
  rw [shapeCast_self, broadcast_apply]
  exact Ideal.ofBits_zero_f32

theorem sum_block (f : ℕ → EReal) (n : ℕ) :
    ∑ m ∈ Finset.range (2000 * (n + 1)), f m = ∑ m ∈ Finset.range (2000 * n), f m + ∑ k ∈ Finset.range 2000, f (2000 * n + k) := by
  rw [Nat.mul_succ, Finset.sum_range_add]

-- If the accumulator holds at (g, j) column j's sum over the rows below 2000·n, point n's update makes it the sum over the rows below 2000·(n+1).
theorem accStep5_rows (c : Dev nD) (n : ℕ) (h : n < cfg5.N) (a : Vec Ideal S1024x2 .f32) (g : Fin 1024) (j : Fin 2)
    (ha : a (ix2 g j) = ∑ m ∈ Finset.range (2000 * n), rowTerm (batRows V c) (valRows V c) (BitVec.ofNat 32 g.val) j m) :
    accStep5 (F := Ideal) a (iblk5 V c 0 ⟨n, h⟩) (iblk5 V c 1 ⟨n, h⟩) (ix2 g j)
      = ∑ m ∈ Finset.range (2000 * (n + 1)), rowTerm (batRows V c) (valRows V c) (BitVec.ofNat 32 g.val) j m := by
  have hN : cfg5.N = 50 := N_5
  rw [sum_block, ← ha]
  exact (accStep5_apply a _ _ g j).trans (congrArg (a (ix2 g j) + ·) (blockSum5 (batRows V c) (valRows V c) _ j (fun k => iblk5 V c 1 ⟨n, h⟩ (ix2 k 0))
    (fun k => iblk5 V c 0 ⟨n, h⟩ (ix2 k 0)) n (by omega) (iblk5_1_row V c ⟨n, h⟩) (iblk5_0_row V c ⟨n, h⟩)))

-- After point n the accumulator holds, at (g, j), column j's sum over the rows below 2000·(n+1) whose group number is g.
theorem acc5_apply (c : Dev nD) (g : Fin 1024) (j : Fin 2) : ∀ (n : ℕ) (h : n < cfg5.N),
    acc5 (F := Ideal) V c n h (ix2 g j)
      = ∑ m ∈ Finset.range (2000 * (n + 1)), rowTerm (batRows V c) (valRows V c) (BitVec.ofNat 32 g.val) j m
  | 0, h => accStep5_rows V c 0 h _ g j ((zeros5_apply _).trans (by rw [Nat.mul_zero, Finset.range_zero, Finset.sum_empty]))
  | n + 1, h => accStep5_rows V c (n + 1) h _ g j (acc5_apply c g j n (Nat.lt_of_succ_lt h))

theorem hz5 : (![0, 0] : Fin 2 → Nat) = fun _ => 0 := funext fun a => by fin_cases a <;> rfl

-- The pooling kernel's result: the mean of each group's values, an empty group counted as one row.
theorem final5 (c : Dev nD) :
    out5_2 (acc5 (F := Ideal) V c 49 (by decide))
      = Cert.Spec.pool (V c (Pipeline.arrRef spec5 0)) (V c (Pipeline.arrRef spec5 1)) (Ideal.ofBits .f32 0x3F800000#32) := by
  funext i
  obtain ⟨g, z, rfl⟩ : ∃ (g : Fin 1024) (z : Fin 1), i = ix2 g z := ⟨i 0, i 1, eq_ix2 i⟩
  obtain rfl : z = 0 := Subsingleton.elim _ _
  unfold out5_2
  rw [View.canon_unit_zero hz5]
  unfold k5_pay5
  rw [divf_apply, maximumf_apply, broadcast_apply]
  show Ideal.div (acc5 (F := Ideal) V c 49 _ (col0_5.emb (ix2 g 0))) (max (acc5 (F := Ideal) V c 49 _ (col1_5.emb (ix2 g 0))) (Ideal.ofBits .f32 0x3F800000#32)) = _
  rw [col0_5_emb, col1_5_emb, acc5_apply, acc5_apply]
  show _ = Ideal.div (∑ n : Fin 100000, if batRows V c n = BitVec.ofNat 32 g.val then addend5 0 (valRows V c n) else 0)
    (max (∑ n : Fin 100000, if batRows V c n = BitVec.ofNat 32 g.val then addend5 1 (valRows V c n) else 0) (Ideal.ofBits .f32 0x3F800000#32))
  rw [sum_rowTerm_all, sum_rowTerm_all]

end Cert.KernelIdeal.Hand
-- ==== Proof.RefConv.lean ====
import proofs.«402462_j21947282882773_1_alg».proof.Proof.Gen.ReferenceIdeal.Read
import proofs.«402462_j21947282882773_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

-- An index is determined by its coordinates.
theorem idx2_eq {n0 n1 : Nat} {f : (⟨2, ![n0, n1]⟩ : Shape).Idx} {a : Fin n0} {b : Fin n1} (h0 : f 0 = a) (h1 : f 1 = b) :
    f = ix2 a b := by
  subst h0 h1; exact eq_ix2 f

theorem idx1_eq {n : Nat} {f : (⟨1, ![n]⟩ : Shape).Idx} {a : Fin n} (h : f 0 = a) : f = ix1 a := by
  subst h; exact eq_ix1 f

-- Addition of extended reals is commutative and associative.
theorem conv_at {D : Nat} (y agg : Cert.Spec.Arr 100000 D) (wroot wrel : Cert.Spec.Arr D 128) (b : (⟨1, ![128]⟩ : Shape).Idx → EReal)
    (p : Fin 100000) (q : Fin 128) {L L' : Fin D → (⟨2, ![100000, D]⟩ : Shape).Idx} {R R' : Fin D → (⟨2, ![D, 128]⟩ : Shape).Idx}
    {B : (⟨1, ![128]⟩ : Shape).Idx} (hL : ∀ k, L k = ix2 p k) (hR : ∀ k, R k = ix2 k q) (hB : B = ix1 q)
    (hL' : ∀ k, L' k = ix2 p k) (hR' : ∀ k, R' k = ix2 k q) :
    (∑ k, agg (L k) * wrel (R k)) + b B + ∑ k, y (L' k) * wroot (R' k)
      = Cert.Spec.convAt y agg wroot wrel (fun j => b (ix1 (j 1))) p q := by
  simp only [hL, hR, hB, hL', hR']
  exact add_right_comm _ _ _

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x4 x5 : (⟨S128x64, .f32⟩ : BufTy).Contents (Elt Ideal))
  (x6 : (⟨S128, .f32⟩ : BufTy).Contents (Elt Ideal)) (x7 x8 : (⟨S3x128x128, .f32⟩ : BufTy).Contents (Elt Ideal))
  (x9 : (⟨S3x128, .f32⟩ : BufTy).Contents (Elt Ideal))

theorem conv0_eq : val_main_v24 (F := Ideal) x0 x1 x2 x4 x5 x6 = Cert.Spec.conv (D := 64) x0 (val_main_v16 (F := Ideal) x0 x1 x2)
    (val_main_v22 (F := Ideal) x4) (val_main_v17 (F := Ideal) x5) (fun i => x6 (ix1 (i 1))) := by
  funext i
  rw [val_main_v24_apply, val_main_v21_apply, val_main_v18_apply, val_main_v20_apply, val_main_v19_apply, val_main_v23_apply]
  exact conv_at _ _ _ _ _ (i 0) (i 1) (fun _ => idx2_eq rfl rfl) (fun _ => idx2_eq rfl rfl) (idx1_eq rfl)
    (fun _ => idx2_eq rfl rfl) (fun _ => idx2_eq rfl rfl)

theorem conv1_eq : val_main_v51 (F := Ideal) x0 x1 x2 x4 x5 x6 x7 x8 x9 = Cert.Spec.conv (D := 128) (val_main_v24 (F := Ideal) x0 x1 x2 x4 x5 x6)
    (val_main_v43 (F := Ideal) x0 x1 x2 x4 x5 x6) (val_main_v49 (F := Ideal) x7) (val_main_v44 (F := Ideal) x8)
    (fun i => val_main_v30 (F := Ideal) x9 (ix1 (i 1))) := by
  funext i
  rw [val_main_v51_apply, val_main_v48_apply, val_main_v45_apply, val_main_v47_apply, val_main_v46_apply, val_main_v50_apply]
  exact conv_at _ _ _ _ _ (i 0) (i 1) (fun _ => idx2_eq rfl rfl) (fun _ => idx2_eq rfl rfl) (idx1_eq rfl)
    (fun _ => idx2_eq rfl rfl) (fun _ => idx2_eq rfl rfl)

theorem conv2_eq : val_main_v78 (F := Ideal) x0 x1 x2 x4 x5 x6 x7 x8 x9 = Cert.Spec.conv (D := 128) (val_main_v51 (F := Ideal) x0 x1 x2 x4 x5 x6 x7 x8 x9)
    (val_main_v70 (F := Ideal) x0 x1 x2 x4 x5 x6 x7 x8 x9) (val_main_v76 (F := Ideal) x7) (val_main_v71 (F := Ideal) x8)
    (fun i => val_main_v57 (F := Ideal) x9 (ix1 (i 1))) := by
  funext i
  rw [val_main_v78_apply, val_main_v75_apply, val_main_v72_apply, val_main_v74_apply, val_main_v73_apply, val_main_v77_apply]
  exact conv_at _ _ _ _ _ (i 0) (i 1) (fun _ => idx2_eq rfl rfl) (fun _ => idx2_eq rfl rfl) (idx1_eq rfl)
    (fun _ => idx2_eq rfl rfl) (fun _ => idx2_eq rfl rfl)

theorem conv3_eq : val_main_v105 (F := Ideal) x0 x1 x2 x4 x5 x6 x7 x8 x9 = Cert.Spec.conv (D := 128) (val_main_v78 (F := Ideal) x0 x1 x2 x4 x5 x6 x7 x8 x9)
    (val_main_v97 (F := Ideal) x0 x1 x2 x4 x5 x6 x7 x8 x9) (val_main_v103 (F := Ideal) x7) (val_main_v98 (F := Ideal) x8)
    (fun i => val_main_v84 (F := Ideal) x9 (ix1 (i 1))) := by
  funext i
  rw [val_main_v105_apply, val_main_v102_apply, val_main_v99_apply, val_main_v101_apply, val_main_v100_apply, val_main_v104_apply]
  exact conv_at _ _ _ _ _ (i 0) (i 1) (fun _ => idx2_eq rfl rfl) (fun _ => idx2_eq rfl rfl) (idx1_eq rfl)
    (fun _ => idx2_eq rfl rfl) (fun _ => idx2_eq rfl rfl)

end Cert.ReferenceIdeal.RefValue

end
-- ==== Proof.BridgeConv.lean ====
import proofs.«402462_j21947282882773_1_alg».proof.Proof.KI.Chain
import proofs.«402462_j21947282882773_1_alg».proof.Proof.RefConv
import Idealize.ShloMosaic.Lib.ValueLayout

noncomputable section

namespace Cert.Proof.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo
open Cert.ReferenceIdeal.Read Cert.ReferenceIdeal.RefValue

abbrev Vals : Type := (c : Dev nD) → (b : Ref sig .tc) → Buf (Elt Ideal) ((c : Thread nD τ).loc b)

abbrev RegionConv0 : Prop :=
  ∀ (V : Vals) (c : Dev nD),
    (dat0 (F := Ideal) V c).arrAt 5 cfg0.N = Cert.Spec.conv (D := 64) (V c (Pipeline.arrRef spec0 0)) (V c (Pipeline.arrRef spec0 1)) (V c (Pipeline.arrRef spec0 2)) (V c (Pipeline.arrRef spec0 3)) (V c (Pipeline.arrRef spec0 4))
abbrev RegionConv1 : Prop :=
  ∀ (V : Vals) (c : Dev nD),
    (dat1 (F := Ideal) V c).arrAt 5 cfg1.N = Cert.Spec.conv (D := 128) (V c (Pipeline.arrRef spec1 0)) (V c (Pipeline.arrRef spec1 1)) (V c (Pipeline.arrRef spec1 2)) (V c (Pipeline.arrRef spec1 3)) (V c (Pipeline.arrRef spec1 4))
abbrev RegionConv2 : Prop :=
  ∀ (V : Vals) (c : Dev nD),
    (dat2 (F := Ideal) V c).arrAt 5 cfg2.N = Cert.Spec.conv (D := 128) (V c (Pipeline.arrRef spec2 0)) (V c (Pipeline.arrRef spec2 1)) (V c (Pipeline.arrRef spec2 2)) (V c (Pipeline.arrRef spec2 3)) (V c (Pipeline.arrRef spec2 4))
abbrev RegionConv3 : Prop :=
  ∀ (V : Vals) (c : Dev nD),
    (dat3 (F := Ideal) V c).arrAt 5 cfg3.N = Cert.Spec.conv (D := 128) (V c (Pipeline.arrRef spec3 0)) (V c (Pipeline.arrRef spec3 1)) (V c (Pipeline.arrRef spec3 2)) (V c (Pipeline.arrRef spec3 3)) (V c (Pipeline.arrRef spec3 4))

-- A vector recast as a row keeps row-major positions, so entry (0, q) is entry q.
theorem row_cast {α : Type} {a : ℕ} (x : (⟨1, ![a]⟩ : Shape).Idx → α) (h : (⟨1, ![a]⟩ : Shape).ShapeCasts ⟨2, ![1, a]⟩) :
    shapeCast ⟨2, ![1, a]⟩ x h = fun i => x (ix1 (i 1)) :=
  funext fun i => by rw [eq_ix2 i]; exact shapeCast_a_1a_apply x h _ _

theorem conv_congr {D : Nat} {x x' agg agg' : Cert.Spec.Arr 100000 D} {wr wr' wl wl' : Cert.Spec.Arr D 128} {b b' : Cert.Spec.Arr 1 128}
    (h0 : x = x') (h1 : agg = agg') (h2 : wr = wr') (h3 : wl = wl') (h4 : b = b') :
    Cert.Spec.conv x agg wr wl b = Cert.Spec.conv x' agg' wr' wl' b' := by
  subst h0 h1 h2 h3 h4; rfl

variable (m : (ℓ : Loc nD τ sig) → Buf (Elt Ideal) ℓ) (c : Dev nD)

abbrev arg (r : Ref sig .tc) : Buf (Elt Ideal) ((c : Thread nD τ).loc r) := m ((c : Thread nD τ).loc r)

abbrev ref0 := val_main_v24 (F := Ideal) (arg m c main_arg0) (arg m c main_arg1) (arg m c main_arg2) (arg m c main_arg4) (arg m c main_arg5) (arg m c main_arg6)
abbrev ref1 := val_main_v51 (F := Ideal) (arg m c main_arg0) (arg m c main_arg1) (arg m c main_arg2) (arg m c main_arg4) (arg m c main_arg5) (arg m c main_arg6) (arg m c main_arg7) (arg m c main_arg8) (arg m c main_arg9)
abbrev ref2 := val_main_v78 (F := Ideal) (arg m c main_arg0) (arg m c main_arg1) (arg m c main_arg2) (arg m c main_arg4) (arg m c main_arg5) (arg m c main_arg6) (arg m c main_arg7) (arg m c main_arg8) (arg m c main_arg9)
abbrev ref3 := val_main_v105 (F := Ideal) (arg m c main_arg0) (arg m c main_arg1) (arg m c main_arg2) (arg m c main_arg4) (arg m c main_arg5) (arg m c main_arg6) (arg m c main_arg7) (arg m c main_arg8) (arg m c main_arg9)

-- The six arrays every later layer is computed from, at their values after the first host operations.
def Kept (W : Valuation τ sig (Elt Ideal)) : Prop :=
  W (Proc.devRef .tc main_v1) = val_main_v1 (F := Ideal) (arg m c main_arg1) ∧
  W (Proc.devRef .tc main_v3) = val_main_v3 (F := Ideal) (arg m c main_arg1) ∧
  W (Proc.devRef .tc main_arg2) = arg m c main_arg2 ∧ W (Proc.devRef .tc main_arg7) = arg m c main_arg7 ∧
  W (Proc.devRef .tc main_arg8) = arg m c main_arg8 ∧ W (Proc.devRef .tc main_arg9) = arg m c main_arg9

variable {m c} in
-- What writes none of the six keeps them.
theorem Kept.mono {W W' : Valuation τ sig (Elt Ideal)} (h : Kept m c W)
    (e : ∀ r ∈ [main_v1, main_v3, main_arg2, main_arg7, main_arg8, main_arg9], W' (Proc.devRef .tc r) = W (Proc.devRef .tc r)) :
    Kept m c W' :=
  ⟨(e _ (by decide)).trans h.1, (e _ (by decide)).trans h.2.1, (e _ (by decide)).trans h.2.2.1, (e _ (by decide)).trans h.2.2.2.1,
    (e _ (by decide)).trans h.2.2.2.2.1, (e _ (by decide)).trans h.2.2.2.2.2⟩

theorem kept1 : Kept m c (W1 m c) := by
  refine ⟨?_, ?_, W1_of m c _ (by decide), W1_of m c _ (by decide), W1_of m c _ (by decide), W1_of m c _ (by decide)⟩
  · show StableHlo.after hostOps0 _ (Proc.devRef .tc main_v1) = _
    after_results
    rfl
  · show StableHlo.after hostOps0 _ (Proc.devRef .tc main_v3) = _
    after_results
    rfl

theorem kept2 : Kept m c (W2 m c) :=
  (kept1 m c).mono fun r hr => W2_of_ne m c r (by revert r; decide)

theorem kept4 : Kept m c (W4 m c) :=
  (kept2 m c).mono fun r hr => (W4_of_ne m c r (by revert r; decide)).trans (W3_of m c r (by revert r; decide))

theorem kept6 : Kept m c (W6 m c) :=
  (kept4 m c).mono fun r hr => (W6_of_ne m c r (by revert r; decide)).trans (W5_of m c r (by revert r; decide))

theorem layer0 (hf0 : RegionConv0) : W2 m c (Proc.devRef .tc main_v20) = ref0 m c := by
  refine (W2_arr m c 5).trans <| (hf0 (X1 m) c).trans <|
    (conv_congr (W1_of m c main_arg0 (by decide)) ?_ ?_ ?_ ?_).trans (conv0_eq _ _ _ _ _ _).symm
  · show StableHlo.after hostOps0 _ (Proc.devRef .tc main_v16) = _
    after_results_simp
    rfl
  · show StableHlo.after hostOps0 _ (Proc.devRef .tc main_v17) = _
    after_results
    rfl
  · show StableHlo.after hostOps0 _ (Proc.devRef .tc main_v18) = _
    after_results
    rfl
  · show StableHlo.after hostOps0 _ (Proc.devRef .tc main_v19) = _
    after_results
    exact row_cast _ _

theorem agg1 (hy : W2 m c (Proc.devRef .tc main_v20) = ref0 m c) :
    W3 m c (Proc.devRef .tc main_v39) = val_main_v43 (F := Ideal) (arg m c main_arg0) (arg m c main_arg1) (arg m c main_arg2) (arg m c main_arg4) (arg m c main_arg5) (arg m c main_arg6) := by
  show StableHlo.after hostOps1 _ (Proc.devRef .tc main_v39) = _
  after_results_simp
  rw [hy, (kept2 m c).1, (kept2 m c).2.1, (kept2 m c).2.2.1]
  rfl

theorem bias1 : W3 m c (Proc.devRef .tc main_v42) = fun i => val_main_v30 (F := Ideal) (arg m c main_arg9) (ix1 (i 1)) := by
  show StableHlo.after hostOps1 _ (Proc.devRef .tc main_v42) = _
  after_results
  rw [(kept2 m c).2.2.2.2.2]
  exact row_cast _ _

theorem layer1 (hf0 : RegionConv0) (hf1 : RegionConv1) : W4 m c (Proc.devRef .tc main_v43) = ref1 m c := by
  have hy := layer0 m c hf0
  refine (W4_arr m c 5).trans <| (hf1 (X3 m) c).trans <|
    (conv_congr ((W3_of m c main_v20 (by decide)).trans hy) (agg1 m c hy) ?_ ?_ (bias1 m c)).trans (conv1_eq _ _ _ _ _ _ _ _ _).symm
  · show StableHlo.after hostOps1 _ (Proc.devRef .tc main_v40) = _
    after_results
    rw [(kept2 m c).2.2.2.1]
    rfl
  · show StableHlo.after hostOps1 _ (Proc.devRef .tc main_v41) = _
    after_results
    rw [(kept2 m c).2.2.2.2.1]
    rfl

theorem agg2 (hy : W4 m c (Proc.devRef .tc main_v43) = ref1 m c) :
    W5 m c (Proc.devRef .tc main_v62) = val_main_v70 (F := Ideal) (arg m c main_arg0) (arg m c main_arg1) (arg m c main_arg2) (arg m c main_arg4) (arg m c main_arg5) (arg m c main_arg6) (arg m c main_arg7) (arg m c main_arg8) (arg m c main_arg9) := by
  show StableHlo.after hostOps2 _ (Proc.devRef .tc main_v62) = _
  after_results_simp
  rw [hy, (kept4 m c).1, (kept4 m c).2.1, (kept4 m c).2.2.1]
  rfl

theorem bias2 : W5 m c (Proc.devRef .tc main_v65) = fun i => val_main_v57 (F := Ideal) (arg m c main_arg9) (ix1 (i 1)) := by
  show StableHlo.after hostOps2 _ (Proc.devRef .tc main_v65) = _
  after_results
  rw [(kept4 m c).2.2.2.2.2]
  exact row_cast _ _

theorem layer2 (hf0 : RegionConv0) (hf1 : RegionConv1) (hf2 : RegionConv2) : W6 m c (Proc.devRef .tc main_v66) = ref2 m c := by
  have hy := layer1 m c hf0 hf1
  refine (W6_arr m c 5).trans <| (hf2 (X5 m) c).trans <|
    (conv_congr ((W5_of m c main_v43 (by decide)).trans hy) (agg2 m c hy) ?_ ?_ (bias2 m c)).trans (conv2_eq _ _ _ _ _ _ _ _ _).symm
  · show StableHlo.after hostOps2 _ (Proc.devRef .tc main_v63) = _
    after_results
    rw [(kept4 m c).2.2.2.1]
    rfl
  · show StableHlo.after hostOps2 _ (Proc.devRef .tc main_v64) = _
    after_results
    rw [(kept4 m c).2.2.2.2.1]
    rfl

theorem agg3 (hy : W6 m c (Proc.devRef .tc main_v66) = ref2 m c) :
    W7 m c (Proc.devRef .tc main_v85) = val_main_v97 (F := Ideal) (arg m c main_arg0) (arg m c main_arg1) (arg m c main_arg2) (arg m c main_arg4) (arg m c main_arg5) (arg m c main_arg6) (arg m c main_arg7) (arg m c main_arg8) (arg m c main_arg9) := by
  show StableHlo.after hostOps3 _ (Proc.devRef .tc main_v85) = _
  after_results_simp
  rw [hy, (kept6 m c).1, (kept6 m c).2.1, (kept6 m c).2.2.1]
  rfl

theorem bias3 : W7 m c (Proc.devRef .tc main_v88) = fun i => val_main_v84 (F := Ideal) (arg m c main_arg9) (ix1 (i 1)) := by
  show StableHlo.after hostOps3 _ (Proc.devRef .tc main_v88) = _
  after_results
  rw [(kept6 m c).2.2.2.2.2]
  exact row_cast _ _

theorem layer3 (hf0 : RegionConv0) (hf1 : RegionConv1) (hf2 : RegionConv2) (hf3 : RegionConv3) : W8 m c (Proc.devRef .tc main_v89) = ref3 m c := by
  have hy := layer2 m c hf0 hf1 hf2
  refine (W8_arr m c 5).trans <| (hf3 (X7 m) c).trans <|
    (conv_congr ((W7_of m c main_v66 (by decide)).trans hy) (agg3 m c hy) ?_ ?_ (bias3 m c)).trans (conv3_eq _ _ _ _ _ _ _ _ _).symm
  · show StableHlo.after hostOps3 _ (Proc.devRef .tc main_v86) = _
    after_results
    rw [(kept6 m c).2.2.2.1]
    rfl
  · show StableHlo.after hostOps3 _ (Proc.devRef .tc main_v87) = _
    after_results
    rw [(kept6 m c).2.2.2.2.1]
    rfl

end Cert.Proof.Bridge

end
-- ==== Proof.LibScatterCol.lean ====
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.ScatterCol

-- Operand [1024, 1]; indices and updates [100000, 1]; update row n is added to the operand row its index names.
abbrev SG : Shape := ⟨2, ![1024, 1]⟩
abbrev SN : Shape := ⟨2, ![100000, 1]⟩

abbrev colDims (wf : ScatterDims.WF SG SN SN [1] [0] [0] 1) : ScatterDims SG SN SN where
  updateWindowDims := [1]
  insertedWindowDims := [0]
  scatterDimsToOperandDims := [0]
  indexVectorDim := 1
  wf := wf

variable (wf : ScatterDims.WF SG SN SN [1] [0] [0] 1)

theorem start0 {w : Nat} (j : SN.Idx) (idx : IVec SN w) :
    (colDims wf).start j idx 0 = (idx (ix2 (j 0) 0)).toInt := by
  unfold ScatterDims.start
  rw [dif_pos (show (0 : Fin SG.rank) ∈ (colDims wf).scatterDimsToOperandDims from List.mem_singleton.mpr rfl)]
  congr 2
  funext b
  refine Fin.ext ?_
  match b with
  | ⟨0, _⟩ => rfl
  | ⟨1, _⟩ => rfl

theorem start1 {w : Nat} (j : SN.Idx) (idx : IVec SN w) :
    (colDims wf).start j idx 1 = 0 := by
  unfold ScatterDims.start
  rw [dif_neg (show ¬ (1 : Fin 2) ∈ ([0] : List (Fin 2)) by decide)]

theorem window0 (j : SN.Idx) : (colDims wf).window j 0 = 0 := by
  unfold ScatterDims.window
  rw [dif_neg (show ¬ (0 : Fin 2) ∈ SG.kept [0] by decide)]

theorem window1 (j : SN.Idx) : (colDims wf).window j 1 = 0 := by
  unfold ScatterDims.window
  rw [dif_pos (show (1 : Fin 2) ∈ SG.kept [0] by decide)]
  have h : (j 1).val < 1 := (j 1).isLt
  show ((j 1).val : Nat) = 0
  omega

-- A bit vector below 2^31 has the same signed and unsigned value.
theorem toInt_eq_iff (x : BitVec 32) (g : Nat) (hg : g < 1024) : x.toInt = (g : Int) ↔ x = BitVec.ofNat 32 g := by
  constructor
  · intro h
    rw [← BitVec.ofInt_toInt (x := x), h, BitVec.ofInt_natCast]
  · rintro rfl
    have hn : (BitVec.ofNat 32 g).toNat = g := by rw [BitVec.toNat_ofNat]; omega
    rw [BitVec.toInt_eq_toNat_of_lt (by rw [hn]; omega), hn]

-- The landing row of an update is the signed value of its index.
theorem resultIdx_eq_some_iff (j : SN.Idx) (idx : IVec SN 32) (i : SG.Idx) :
    (colDims wf).resultIdx? j idx = some i ↔ idx (ix2 (j 0) 0) = BitVec.ofNat 32 (i 0).val := by
  have hi0 : (i 0).val < 1024 := (i 0).isLt
  have hi1 : (i 1).val < 1 := (i 1).isLt
  unfold ScatterDims.resultIdx?
  constructor
  · intro h
    split at h
    · rename_i hc
      have h' := Option.some.inj h
      have h0 : ((colDims wf).start j idx 0 + ((colDims wf).window j 0 : Nat)).toNat = (i 0).val :=
        congrArg (fun f : SG.Idx => (f 0).val) h'
      have hc0 := hc 0
      rw [start0, window0] at hc0 h0
      rw [← toInt_eq_iff _ _ hi0]
      omega
    · cases h
  · intro h
    have ht := (toInt_eq_iff _ _ hi0).2 h
    have hc : ∀ a : Fin SG.rank, 0 ≤ (colDims wf).start j idx a + ((colDims wf).window j a : Nat) ∧
        (colDims wf).start j idx a + ((colDims wf).window j a : Nat) < SG.size a := by
      refine Fin.forall_fin_two.2 ⟨?_, ?_⟩
      · rw [start0, window0, ht]
        refine ⟨by omega, ?_⟩
        show ((i 0).val : Int) + ((0 : Nat) : Int) < ((1024 : Nat) : Int)
        omega
      · rw [start1, window1]
        refine ⟨by omega, ?_⟩
        show (0 : Int) + ((0 : Nat) : Int) < ((1 : Nat) : Int)
        omega
    rw [dif_pos hc]
    congr 1
    funext a
    refine Fin.ext ?_
    revert a
    refine (Fin.forall_fin_two (p := fun a : Fin 2 =>
      ((colDims wf).start j idx a + ((colDims wf).window j a : Nat)).toNat = (i a).val)).2 ⟨?_, ?_⟩
    · rw [start0, window0, ht]; omega
    · rw [start1, window1]; omega

-- Over zeros, slot (g, 0) is the sum of the update rows whose index is g.
theorem scatterAdd_col (x : FVec Ideal SG .f32) (hx : ∀ i, x i = 0) (idx : IVec SN 32) (upd : FVec Ideal SN .f32)
    (g : Fin 1024) :
    Host.scatterAdd (F := Ideal) (colDims wf) x idx upd (ix2 g 0)
      = ∑ n : Fin 100000, if idx (ix2 n 0) = BitVec.ofNat 32 g.val then upd (ix2 n 0) else 0 := by
  show Ideal.hostScatterAdd (colDims wf) x idx upd (ix2 g 0) = _
  unfold Ideal.hostScatterAdd
  rw [hx, zero_add, Finset.sum_filter]
  simp only [resultIdx_eq_some_iff]
  rw [sum_idx2]
  refine Finset.sum_congr rfl fun n _ => ?_
  rw [Fin.sum_univ_one]

end Cert.ScatterCol

end
-- ==== Proof.RefTail.lean ====
import proofs.«402462_j21947282882773_1_alg».proof.Proof.RefConv
import proofs.«402462_j21947282882773_1_alg».proof.Proof.LibScatterCol

noncomputable section

namespace Cert.ReferenceIdeal.RefValue

open Cert.ReferenceIdeal Cert.ReferenceIdeal.Read Idealize.ShloMosaic Idealize.ShloMosaic.ValueIdx Idealize.ShloMosaic.StableHlo
open scoped BigOperators

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 : (⟨S100000, .i32⟩ : BufTy).Contents (Elt Ideal))
  (x4 x5 : (⟨S128x64, .f32⟩ : BufTy).Contents (Elt Ideal)) (x6 : (⟨S128, .f32⟩ : BufTy).Contents (Elt Ideal))
  (x7 x8 : (⟨S3x128x128, .f32⟩ : BufTy).Contents (Elt Ideal)) (x9 : (⟨S3x128, .f32⟩ : BufTy).Contents (Elt Ideal))
  (x10 : (⟨S64x128, .f32⟩ : BufTy).Contents (Elt Ideal)) (x11 : (⟨S64, .f32⟩ : BufTy).Contents (Elt Ideal))
  (x12 : (⟨S1x64, .f32⟩ : BufTy).Contents (Elt Ideal)) (x13 : (⟨S1, .f32⟩ : BufTy).Contents (Elt Ideal))

theorem hidden_at (p : Fin 100000) (k : Fin 64) :
    val_main_v111 (F := Ideal) x0 x1 x2 x4 x5 x6 x7 x8 x9 x10 x11 (ix2 p k)
      = max ((∑ j : Fin 128, val_main_v105 (F := Ideal) x0 x1 x2 x4 x5 x6 x7 x8 x9 (ix2 p j)
                * val_main_v106 (F := Ideal) x10 (ix2 j k)) + x11 (ix1 k)) (Ideal.ofBits .f32 0x00000000#32) := by
  rw [val_main_v111_apply, val_main_v110_apply, val_main_v107_apply, val_main_v109_apply, val_main_v108_apply,
    val_main_call0_v0_apply, val_main_call0_cst_apply]
  simp only [show ∀ j, lidx_main_v107 (ix2 p k) j = ix2 p j from fun _ => idx2_eq rfl rfl,
    show ∀ j, ridx_main_v107 (ix2 p k) j = ix2 j k from fun _ => idx2_eq rfl rfl,
    show idx_main_v108 (idx_main_v109 (ix2 p k)) = ix1 k from idx1_eq rfl]
  rfl

theorem mlp_eq : val_main_v116 (F := Ideal) x0 x1 x2 x4 x5 x6 x7 x8 x9 x10 x11 x12 x13
      = Cert.Spec.mlp (val_main_v105 (F := Ideal) x0 x1 x2 x4 x5 x6 x7 x8 x9) (val_main_v106 (F := Ideal) x10)
          (fun i => x11 (ix1 (i 1))) (val_main_v112 (F := Ideal) x12) (fun i => x13 (ix1 (i 1)))
          (Ideal.ofBits .f32 0x00000000#32) := by
  funext i
  obtain ⟨p, q, rfl⟩ : ∃ (p : Fin 100000) (q : Fin 1), i = ix2 p q := ⟨i 0, i 1, eq_ix2 i⟩
  obtain rfl : q = 0 := Subsingleton.elim _ _
  rw [val_main_v116_apply, val_main_v113_apply, val_main_v115_apply, val_main_v114_apply]
  simp only [show ∀ k, lidx_main_v113 (ix2 p 0) k = ix2 p k from fun _ => idx2_eq rfl rfl,
    show ∀ k, ridx_main_v113 (ix2 p 0) k = ix2 k 0 from fun _ => idx2_eq rfl rfl,
    show idx_main_v114 (idx_main_v115 (ix2 p 0)) = ix1 0 from idx1_eq rfl, hidden_at]
  rfl

theorem batch_at (n : Fin 100000) : val_main_v118 (F := Ideal) x3 (ix2 n 0) = x3 (ix1 n) := by
  rw [val_main_v118_apply]
  exact congrArg x3 (idx1_eq rfl)

theorem zeros_at (i : S1024x1.Idx) : val_main_v117 (F := Ideal) i = 0 := by
  rw [val_main_v117_apply, val_main_cst_10_apply, Ideal.ofBits_def, Ideal.ofBits_zero_f32]

-- Both pooled sums are this scatter, with the node values or with ones as updates.
theorem scatter_at (z : (⟨S1024x1, .f32⟩ : BufTy).Contents (Elt Ideal)) (hz : ∀ i, z i = 0)
    (upd : (⟨S100000x1, .f32⟩ : BufTy).Contents (Elt Ideal)) (g : Fin 1024) :
    Host.scatterAdd (F := Ideal) (φ := .f32) scatter_S1024x1_S100000x1_S100000x1_1_0_0_1 z (val_main_v118 (F := Ideal) x3) upd (ix2 g 0)
      = ∑ n : Fin 100000, if x3 (ix1 n) = BitVec.ofNat 32 g.val then upd (ix2 n 0) else 0 :=
  (Cert.ScatterCol.scatterAdd_col Facts₀.scatter_S1024x1_S100000x1_S100000x1_1_0_0_1_wf z hz _ upd g).trans
    (by simp only [batch_at])

theorem num_at (g : Fin 1024) : val_main_v119 (F := Ideal) x0 x1 x2 x3 x4 x5 x6 x7 x8 x9 x10 x11 x12 x13 (ix2 g 0)
      = Cert.Spec.poolNum (val_main_v116 (F := Ideal) x0 x1 x2 x4 x5 x6 x7 x8 x9 x10 x11 x12 x13) (fun i => x3 (ix1 (i 0))) g :=
  scatter_at x3 _ zeros_at _ g

theorem cnt_at (g : Fin 1024) : val_main_v123 (F := Ideal) x3 (ix2 g 0)
      = Cert.Spec.poolCnt (fun i => x3 (ix1 (i 0))) (Ideal.ofBits .f32 0x3F800000#32) g :=
  scatter_at x3 _ zeros_at _ g

theorem pool_eq : val_main_v126 (F := Ideal) x0 x1 x2 x3 x4 x5 x6 x7 x8 x9 x10 x11 x12 x13
      = Cert.Spec.pool (val_main_v116 (F := Ideal) x0 x1 x2 x4 x5 x6 x7 x8 x9 x10 x11 x12 x13)
          (fun i => x3 (ix1 (i 0))) (Ideal.ofBits .f32 0x3F800000#32) := by
  funext i
  obtain ⟨g, q, rfl⟩ : ∃ (g : Fin 1024) (q : Fin 1), i = ix2 g q := ⟨i 0, i 1, eq_ix2 i⟩
  obtain rfl : q = 0 := Subsingleton.elim _ _
  rw [val_main_v126_apply, Ideal.hostDivf_def, val_main_v125_apply, Ideal.maximumf_def, val_main_v124_apply,
    val_main_cst_13_apply, Ideal.ofBits_def, num_at, cnt_at]
  rfl

end Cert.ReferenceIdeal.RefValue

end
-- ==== Proof.BridgeTail.lean ====
import proofs.«402462_j21947282882773_1_alg».proof.Proof.BridgeConv
import proofs.«402462_j21947282882773_1_alg».proof.Proof.RefTail

noncomputable section

namespace Cert.Proof.Bridge

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

-- A vector recast as a column keeps row-major positions, so entry (i, 0) is entry i.
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem mlp_congr {y y' : Cert.Spec.Arr 100000 128} {w1 w1' : Cert.Spec.Arr 128 64} {b1 b1' : Cert.Spec.Arr 1 64}
    {w2 w2' : Cert.Spec.Arr 64 1} {b2 b2' : Cert.Spec.Arr 1 1} (z : EReal)
    (h0 : y = y') (h1 : w1 = w1') (h2 : b1 = b1') (h3 : w2 = w2') (h4 : b2 = b2') :
    Cert.Spec.mlp y w1 b1 w2 b2 z = Cert.Spec.mlp y' w1' b1' w2' b2' z := by
  subst h0 h1 h2 h3 h4; rfl

theorem pool_congr {y y' : Cert.Spec.Arr 100000 1} {b b' : (⟨2, ![100000, 1]⟩ : Shape).Idx → BitVec 32} (one : EReal)
    (h0 : y = y') (h1 : b = b') : Cert.Spec.pool y b one = Cert.Spec.pool y' b' one := by
  subst h0 h1; rfl

-- Nothing before the fifth region writes r, so it still holds its launch contents.
theorem W8_arg (r : Ref sig .tc)
    (h : (r ∉ hostOps0_W ∧ ∀ w, Pipeline.arrRef spec0 w ≠ r) ∧ (r ∉ hostOps1_W ∧ ∀ w, Pipeline.arrRef spec1 w ≠ r) ∧
      (r ∉ hostOps2_W ∧ ∀ w, Pipeline.arrRef spec2 w ≠ r) ∧ r ∉ hostOps3_W ∧ ∀ w, Pipeline.arrRef spec3 w ≠ r) :
    W8 m c (Proc.devRef .tc r) = arg m c r :=
  (W8_of_ne m c r h.2.2.2.2).trans <| (W7_of m c r h.2.2.2.1).trans <| (W6_of_ne m c r h.2.2.1.2).trans <| (W5_of m c r h.2.2.1.1).trans <|
    (W4_of_ne m c r h.2.1.2).trans <| (W3_of m c r h.2.1.1).trans <| (W2_of_ne m c r h.1.2).trans <| W1_of m c r h.1.1

abbrev RegionMlp : Prop :=
  ∀ (V : Vals) (c : Dev nD),
    (dat4 (F := Ideal) V c).arrAt 5 cfg4.N = Cert.Spec.mlp (V c (Pipeline.arrRef spec4 0)) (V c (Pipeline.arrRef spec4 1))
      (V c (Pipeline.arrRef spec4 2)) (V c (Pipeline.arrRef spec4 3)) (V c (Pipeline.arrRef spec4 4)) (Ideal.ofBits .f32 0x00000000#32)

theorem layer4 (h3 : W8 m c (Proc.devRef .tc main_v89) = ref3 m c) (hf4 : RegionMlp) :
    W10 m c (Proc.devRef .tc main_v94) = Cert.ReferenceIdeal.Read.val_main_v116 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) := by
  refine (W10_arr m c 5).trans <| (hf4 (X9 m) c).trans <|
    (mlp_congr _ ((W9_of m c main_v89 (by decide)).trans h3) ?_ ?_ ?_ ?_).trans
      (Cert.ReferenceIdeal.RefValue.mlp_eq _ _ _ _ _ _ _ _ _ _ _ _ _).symm
  · show StableHlo.after hostOps4 _ (Proc.devRef .tc main_v90) = _
    after_results
    rw [W8_arg m c main_arg10 (by decide)]
    rfl
  · show StableHlo.after hostOps4 _ (Proc.devRef .tc main_v92) = _
    after_results
    rw [W8_arg m c main_arg11 (by decide)]
    exact row_cast _ _
  · show StableHlo.after hostOps4 _ (Proc.devRef .tc main_v91) = _
    after_results
    rw [W8_arg m c main_arg12 (by decide)]
    rfl
  · show StableHlo.after hostOps4 _ (Proc.devRef .tc main_v93) = _
    after_results
    rw [W8_arg m c main_arg13 (by decide)]
    exact row_cast _ _

theorem entry5_1 : X11 m c (Pipeline.arrRef spec5 1)
    = (fun i => arg m c main_arg3 (ix1 (i 0)) : (⟨2, ![100000, 1]⟩ : Shape).Idx → BitVec 32) := by
  show StableHlo.after hostOps5 _ (Proc.devRef .tc main_v95) = _
  after_results
  rw [(W10_of_ne m c main_arg3 (by decide)).trans <| (W9_of m c main_arg3 (by decide)).trans (W8_arg m c main_arg3 (by decide))]
  funext i
  rw [eq_ix2 i]
  exact shapeCast_a_a1_apply _ _ _ _

abbrev ref5 := Cert.ReferenceIdeal.Read.val_main_v126 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)

theorem layer5 (h3 : W8 m c (Proc.devRef .tc main_v89) = ref3 m c) (hf4 : RegionMlp)
    (ha5 : ∀ (V : Vals) (c : Dev nD), (dat5 (F := Ideal) V c).arrAt 2 cfg5.N = out5_2 (acc5 (F := Ideal) V c 49 (by decide)))
    (hf5 : ∀ (V : Vals) (c : Dev nD), out5_2 (acc5 (F := Ideal) V c 49 (by decide))
      = Cert.Spec.pool (V c (Pipeline.arrRef spec5 0)) (V c (Pipeline.arrRef spec5 1)) (Ideal.ofBits .f32 0x3F800000#32)) :
    W12 m c (Proc.devRef .tc main_v96) = ref5 m c :=
  (W12_arr m c 2).trans <| (ha5 (X11 m) c).trans <| (hf5 (X11 m) c).trans <|
    (pool_congr _ ((W11_of m c main_v94 (by decide)).trans (layer4 m c h3 hf4)) (entry5_1 m c)).trans
      (Cert.ReferenceIdeal.RefValue.pool_eq _ _ _ _ _ _ _ _ _ _ _ _ _ _).symm

end Cert.Proof.Bridge

end
-- ==== Proof.lean ====
/-
  The two kernel programs run as twelve segments (six host stretches, six kernel regions); each region leaves its
  inputs as entered and its output at one whole-array function of them, and layer by layer the buffers hold the
  reference's stages, so both programs end at the reference's last stage of the arguments.
-/
import proofs.«402462_j21947282882773_1_alg».proof.Defs
import proofs.«402462_j21947282882773_1_alg».proof.Proof.Gen.Kernel
import proofs.«402462_j21947282882773_1_alg».proof.Proof.Gen.KernelIdeal
import proofs.«402462_j21947282882773_1_alg».proof.Proof.Gen.ReferenceIdeal
import proofs.«402462_j21947282882773_1_alg».proof.Proof.Gen.Pre_finite_inputs
import proofs.«402462_j21947282882773_1_alg».proof.Proof.Gen.ReferenceIdeal.Run
import proofs.«402462_j21947282882773_1_alg».proof.Proof.K.Run
import proofs.«402462_j21947282882773_1_alg».proof.Proof.K.Args
import proofs.«402462_j21947282882773_1_alg».proof.Proof.KI.Run
import proofs.«402462_j21947282882773_1_alg».proof.Proof.KI.Args
import proofs.«402462_j21947282882773_1_alg».proof.Proof.KI.Val0
import proofs.«402462_j21947282882773_1_alg».proof.Proof.KI.Val1
import proofs.«402462_j21947282882773_1_alg».proof.Proof.KI.Val2
import proofs.«402462_j21947282882773_1_alg».proof.Proof.KI.Val3
import proofs.«402462_j21947282882773_1_alg».proof.Proof.KI.Val4
import proofs.«402462_j21947282882773_1_alg».proof.Proof.KI.Val5
import proofs.«402462_j21947282882773_1_alg».proof.Proof.BridgeTail

noncomputable section

namespace Cert.Proof

open Idealize.ShloMosaic Idealize.ShloMosaic.TcCoe Idealize.SL.Sem

theorem frame_k : Cert.frame_Kernel := fun m ρ _ =>
  (θ_run Cert.Kernel.defs _ _).mono (fun r h c => Cert.Kernel.Hand.args_kept m c r.2 (h c))
    (Cert.Kernel.Hand.run_main (F := Bits) m ρ)

theorem frame_ki : Cert.frame_KernelIdeal := fun m ρ _ =>
  (θ_run Cert.KernelIdeal.defs _ _).mono (fun r h c => Cert.KernelIdeal.Hand.args_kept m c r.2 (h c))
    (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Bridge.ref5 m c, ?_, ?_⟩
  ·
    refine (θ_run Cert.KernelIdeal.defs _ _).mono (fun r h c =>
      ⟨(Cert.KernelIdeal.Hand.result_read m c r.2 (h c)).trans ?_, Cert.KernelIdeal.Hand.args_kept m c r.2 (h c)⟩)
      (Cert.KernelIdeal.Hand.run_main (F := Ideal) m ρ)
    exact Bridge.layer5 m c
      (Bridge.layer3 m c Cert.KernelIdeal.Hand.final0 Cert.KernelIdeal.Hand.final1
        Cert.KernelIdeal.Hand.final2 Cert.KernelIdeal.Hand.final3)
      Cert.KernelIdeal.Hand.final4 (fun V c => Cert.KernelIdeal.Hand.arr5_2 V c) Cert.KernelIdeal.Hand.final5
  ·
    refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v126_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
